-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x300 : Shape := ⟨2, ![128, 300]⟩
abbrev S300 : Shape := ⟨1, ![300]⟩
abbrev S300x300 : Shape := ⟨2, ![300, 300]⟩
abbrev S4x300x300 : Shape := ⟨3, ![4, 300, 300]⟩
abbrev S4x300 : Shape := ⟨2, ![4, 300]⟩
abbrev S300x10 : Shape := ⟨2, ![300, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S4x300x300 : S_.BroadcastsInDim S4x300x300 (![] : Fin 0 → Fin S4x300x300.rank)
  reducesTo_S4x300x300_S_d0_1_2 : S4x300x300.ReducesTo [0, 1, 2] S_
  bcast_S_S4x300 : S_.BroadcastsInDim S4x300 (![] : Fin 0 → Fin S4x300.rank)
  reducesTo_S4x300_S_d0_1 : S4x300.ReducesTo [0, 1] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S300 .f32) (main_arg12 : FVec F S300 .f32) (main_arg13 : FVec F S300x10 .f32) (main_arg14 : FVec F S10 .f32) (main_v48 : IVec S_ 1) (main_v49 : FVec F S300 .f32) (main_v50 : FVec F S300 .f32) : IVec S_ 1 :=
  let main_v51 : IVec S300 1 := cmpf .olt main_v49 main_v50
  let main_c_19 : IVec S_ 1 := constantI S_ 1 1#1
  let main_v52 : IVec S_ 1 := (fun x v => Host.reduce IntOp.andi x v reducesTo_S300_S_d0 h_S_) main_v51 main_c_19
  let main_v53 : IVec S_ 1 := andi main_v48 main_v52
  let main_v54 : FVec F S300 .f32 := Host.absf main_arg11
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300 .f32 := Host.absf main_arg12
  let main_cst_22 : FVec F S_ .f32 := constant S_ .f32 0x7F800000#32
  let main_v60 : FVec F S300 .f32 := broadcastInDim S300 ![] bcast_S_S300 main_cst_22
  let main_v61 : IVec S300 1 := cmpf .olt main_v59 main_v60
  let main_c_23 : IVec S_ 1 := constantI S_ 1 1#1
  let main_v62 : IVec S_ 1 := (fun x v => Host.reduce IntOp.andi x v reducesTo_S300_S_d0 h_S_) main_v61 main_c_23
  let main_v63 : IVec S_ 1 := andi main_v58 main_v62
  let main_v64 : FVec F S300x10 .f32 := Host.absf main_arg13
  let main_cst_24 : FVec F S_ .f32 := constant S_ .f32 0x7F800000#32
  let main_v65 : FVec F S300x10 .f32 := broadcastInDim S300x10 ![] bcast_S_S300x10 main_cst_24
  let main_v66 : IVec S300x10 1 := cmpf .olt main_v64 main_v65
  let main_c_25 : IVec S_ 1 := constantI S_ 1 1#1
  let main_v67 : IVec S_ 1 := (fun x v => Host.reduce IntOp.andi x v reducesTo_S300x10_S_d0_1 h_S_) main_v66 main_c_25
  fn_part4 (F := F) main_arg14 main_v63 main_v67

def fn_part2 {F : FTy → Type} [FloatOps F] (main_arg7 : FVec F S4x300x300 .f32) (main_arg8 : FVec F S4x300 .f32) (main_arg9 : FVec F S300x300 .f32) (main_arg10 : FVec F S300 .f32) (main_arg11 : FVec F S300 .f32) (main_arg12 : FVec F S300 .f32) (main_arg13 : FVec F S300x10 .f32) (main_arg14 : FVec F S10 .f32) (main_v33 : IVec S_ 1) : IVec S_ 1 :=
  let main_v34 : FVec F S4x300x300 .f32 := Host.absf main_arg7
  let main_cst_12 : FVec F S_ .f32 := constant S_ .f32 0x7F800000#32
  let main_v35 : FVec F S4x300x300 .f32 := broadcastInDim S4x300x300 ![] bcast_S_S4x300x300 main_cst_12
  let main_v36 : IVec S4x300x300 1 := cmpf .olt main_v34 main_v35
  let main_c_13 : IVec S_ 1 := constantI S_ 1 1#1
  let main_v37 : IVec S_ 1 := (fun x v => Host.reduce IntOp.andi x v reducesTo_S4x300x300_S_d0_1_2 h_S_) main_v36 main_c_13
  let main_v38 : IVec S_ 1 := andi main_v33 main_v37
  let main_v39 : FVec F S4x300 .f32 := Host.absf main_arg8
  let main_cst_14 : FVec F S_ .f32 := constant S_ .f32 0x7F800000#32
  let main_v40 : FVec F S4x300 .f32 := broadcastInDim S4x300 ![] bcast_S_S4x300 main_cst_14
  let main_v41 : IVec S4x300 1 := cmpf .olt main_v39 main_v40
  let main_c_15 : IVec S_ 1 := constantI S_ 1 1#1
  let main_v42 : IVec S_ 1 := (fun x v => Host.reduce IntOp.andi x v reducesTo_S4x300_S_d0_1 h_S_) main_v41 main_c_15
  let main_v43 : IVec S_ 1 := andi main_v38 main_v42
  let main_v44 : FVec F S300x300 .f32 := Host.absf main_arg9
  let main_cst_16 : FVec F S_ .f32 := constant S_ .f32 0x7F800000#32
  let main_v45 : FVec F S300x300 .f32 := broadcastInDim S300x300 ![] bcast_S_S300x300 main_cst_16
  let main_v46 : IVec S300x300 1 := cmpf .olt main_v44 main_v45
  let main_c_17 : IVec S_ 1 := constantI S_ 1 1#1
  let main_v47 : IVec S_ 1 := (fun x v => Host.reduce IntOp.andi x v reducesTo_S300x300_S_d0_1 h_S_) main_v46 main_c_17
  let main_v48 : IVec S_ 1 := andi main_v43 main_v47
  let main_v49 : FVec F S300 .f32 := Host.absf main_arg10
  let main_cst_18 : FVec F S_ .f32 := constant S_ .f32 0x7F800000#32
  let main_v50 : FVec F S300 .f32 := broadcastInDim S300 ![] bcast_S_S300 main_cst_18
  fn_part3 (F := F) main_arg11 main_arg12 main_arg13 main_arg14 main_v48 main_v49 main_v50

def fn_part1 {F : FTy → Type} [FloatOps F] (main_arg4 : FVec F S300 .f32) (main_arg5 : FVec F S4x300x300 .f32) (main_arg6 : FVec F S4x300 .f32) (main_arg7 : FVec F S4x300x300 .f32) (main_arg8 : FVec F S4x300 .f32) (main_arg9 : FVec F S300x300 .f32) (main_arg10 : FVec F S300 .f32) (main_arg11 : FVec F S300 .f32) (main_arg12 : FVec F S300 .f32) (main_arg13 : FVec F S300x10 .f32) (main_arg14 : FVec F S10 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S4x300x300 .f32 := Host.absf main_arg5
  let main_cst_8 : FVec F S_ .f32 := constant S_ .f32 0x7F800000#32
  let main_v25 : FVec F S4x300x300 .f32 := broadcastInDim S4x300x300 ![] bcast_S_S4x300x300 main_cst_8
  let main_v26 : IVec S4x300x300 1 := cmpf .olt main_v24 main_v25
  let main_c_9 : IVec S_ 1 := constantI S_ 1 1#1
  let main_v27 : IVec S_ 1 := (fun x v => Host.reduce IntOp.andi x v reducesTo_S4x300x300_S_d0_1_2 h_S_) main_v26 main_c_9
  let main_v28 : IVec S_ 1 := andi main_v23 main_v27
  let main_v29 : FVec F S4x300 .f32 := Host.absf main_arg6
  let main_cst_10 : FVec F S_ .f32 := constant S_ .f32 0x7F800000#32
  let main_v30 : FVec F S4x300 .f32 := broadcastInDim S4x300 ![] bcast_S_S4x300 main_cst_10
  let main_v31 : IVec S4x300 1 := cmpf .olt main_v29 main_v30
  let main_c_11 : IVec S_ 1 := constantI S_ 1 1#1
  let main_v32 : IVec S_ 1 := (fun x v => Host.reduce IntOp.andi x v reducesTo_S4x300_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x128 .f32) (main_arg1 : FVec F S128x300 .f32) (main_arg2 : FVec F S300 .f32) (main_arg3 : FVec F S300x300 .f32) (main_arg4 : FVec F S300 .f32) (main_arg5 : FVec F S4x300x300 .f32) (main_arg6 : FVec F S4x300 .f32) (main_arg7 : FVec F S4x300x300 .f32) (main_arg8 : FVec F S4x300 .f32) (main_arg9 : FVec F S300x300 .f32) (main_arg10 : FVec F S300 .f32) (main_arg11 : FVec F S300 .f32) (main_arg12 : FVec F S300 .f32) (main_arg13 : FVec F S300x10 .f32) (main_arg14 : FVec F S10 .f32) (main_arg15 : IVec S2x800000 32) (main_arg16 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x300 .f32 := Host.absf main_arg1
  let main_cst_0 : FVec F S_ .f32 := constant S_ .f32 0x7F800000#32
  let main_v5 : FVec F S128x300 .f32 := broadcastInDim S128x300 ![] bcast_S_S128x300 main_cst_0
  let main_v6 : IVec S128x300 1 := cmpf .olt main_v4 main_v5
  let main_c_1 : IVec S_ 1 := constantI S_ 1 1#1
  let main_v7 : IVec S_ 1 := (fun x v => Host.reduce IntOp.andi x v reducesTo_S128x300_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x128 : Shape := ⟨2, ![50000, 128]⟩
abbrev S128x300 : Shape := ⟨2, ![128, 300]⟩
abbrev S300 : Shape := ⟨1, ![300]⟩
abbrev S300x300 : Shape := ⟨2, ![300, 300]⟩
abbrev S4x300x300 : Shape := ⟨3, ![4, 300, 300]⟩
abbrev S4x300 : Shape := ⟨2, ![4, 300]⟩
abbrev S300x10 : Shape := ⟨2, ![300, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x300 : Shape := ⟨2, ![1, 300]⟩
abbrev S50000x300 : Shape := ⟨2, ![50000, 300]⟩
abbrev S2000x128 : Shape := ⟨2, ![2000, 128]⟩
abbrev S2000x300 : Shape := ⟨2, ![2000, 300]⟩
abbrev S1x300x300 : Shape := ⟨3, ![1, 300, 300]⟩
abbrev S800000x300 : Shape := ⟨2, ![800000, 300]⟩
abbrev S50000x1 : Shape := ⟨2, ![50000, 1]⟩
abbrev S512x300 : Shape := ⟨2, ![512, 300]⟩
abbrev S2000x1 : Shape := ⟨2, ![2000, 1]⟩
abbrev S2000x512 : Shape := ⟨2, ![2000, 512]⟩
abbrev S1x10 : Shape := ⟨2, ![1, 10]⟩
abbrev S512x10 : Shape := ⟨2, ![512, 10]⟩

abbrev nBuf : Space → Nat
  | .hbm => 140
  | .vmem => 64
  | .smem => 0
  | _ => 0

abbrev hbmTy0_0 (i : Nat) : BufTy := match i % 128 with
  | 0 => ⟨S50000x128, .f32⟩
  | 1 => ⟨S128x300, .f32⟩
  | 2 => ⟨S300, .f32⟩
  | 3 => ⟨S300x300, .f32⟩
  | 4 => ⟨S300, .f32⟩
  | 5 => ⟨S4x300x300, .f32⟩
  | 6 => ⟨S4x300, .f32⟩
  | 7 => ⟨S4x300x300, .f32⟩
  | 8 => ⟨S4x300, .f32⟩
  | 9 => ⟨S300x300, .f32⟩
  | 10 => ⟨S300, .f32⟩
  | 11 => ⟨S300, .f32⟩
  | 12 => ⟨S300, .f32⟩
  | 13 => ⟨S300x10, .f32⟩
  | 14 => ⟨S10, .f32⟩
  | 15 => ⟨S2x800000, .i32⟩
  | 16 => ⟨S50000, .i32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1x300, .f32⟩
  | 35 => ⟨S1x300, .f32⟩
  | 36 => ⟨S50000x300, .f32⟩
  | 37 => ⟨S1x300x300, .f32⟩
  | 38 => ⟨S300x300, .f32⟩
  | 39 => ⟨S1x300, .f32⟩
  | 40 => ⟨S300, .f32⟩
  | 41 => ⟨S1x300x300, .f32⟩
  | 42 => ⟨S300x300, .f32⟩
  | 43 => ⟨S1x300, .f32⟩
  | 44 => ⟨S300, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x300, .f32⟩
  | 54 => ⟨S_, .f32⟩
  | 55 => ⟨S50000x300, .f32⟩
  | 56 => ⟨S800000x1, .i32⟩
  | 57 => ⟨S50000x300, .f32⟩
  | 58 => ⟨S1x300, .f32⟩
  | 59 => ⟨S1x300, .f32⟩
  | 60 => ⟨S50000x300, .f32⟩
  | 61 => ⟨S1x300x300, .f32⟩
  | 62 => ⟨S300x300, .f32⟩
  | 63 => ⟨S1x300, .f32⟩
  | 64 => ⟨S300, .f32⟩
  | 65 => ⟨S1x300x300, .f32⟩
  | 66 => ⟨S300x300, .f32⟩
  | 67 => ⟨S1x300, .f32⟩
  | 68 => ⟨S300, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x300, .f32⟩
  | 78 => ⟨S_, .f32⟩
  | 79 => ⟨S50000x300, .f32⟩
  | 80 => ⟨S800000x1, .i32⟩
  | 81 => ⟨S50000x300, .f32⟩
  | 82 => ⟨S1x300, .f32⟩
  | 83 => ⟨S1x300, .f32⟩
  | 84 => ⟨S50000x300, .f32⟩
  | 85 => ⟨S1x300x300, .f32⟩
  | 86 => ⟨S300x300, .f32⟩
  | 87 => ⟨S1x300, .f32⟩
  | 88 => ⟨S300, .f32⟩
  | 89 => ⟨S1x300x300, .f32⟩
  | 90 => ⟨S300x300, .f32⟩
  | 91 => ⟨S1x300, .f32⟩
  | 92 => ⟨S300, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x300, .f32⟩
  | 102 => ⟨S_, .f32⟩
  | 103 => ⟨S50000x300, .f32⟩
  | 104 => ⟨S800000x1, .i32⟩
  | 105 => ⟨S50000x300, .f32⟩
  | 106 => ⟨S1x300, .f32⟩
  | 107 => ⟨S1x300, .f32⟩
  | 108 => ⟨S50000x300, .f32⟩
  | 109 => ⟨S1x300x300, .f32⟩
  | 110 => ⟨S300x300, .f32⟩
  | 111 => ⟨S1x300, .f32⟩
  | 112 => ⟨S300, .f32⟩
  | 113 => ⟨S1x300x300, .f32⟩
  | 114 => ⟨S300x300, .f32⟩
  | 115 => ⟨S1x300, .f32⟩
  | 116 => ⟨S300, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x300, .f32⟩
  | 126 => ⟨S_, .f32⟩
  | 127 => ⟨S50000x300, .f32⟩
  | _ => ⟨S50000x128, .f32⟩

abbrev hbmTy0_1 (i : Nat) : BufTy := match i % 128 with
  | 0 => ⟨S800000x1, .i32⟩
  | 1 => ⟨S50000x300, .f32⟩
  | 2 => ⟨S1x300, .f32⟩
  | 3 => ⟨S1x300, .f32⟩
  | 4 => ⟨S50000x300, .f32⟩
  | 5 => ⟨S50000x1, .i32⟩
  | 6 => ⟨S512x300, .f32⟩
  | 7 => ⟨S1x300, .f32⟩
  | 8 => ⟨S1x300, .f32⟩
  | 9 => ⟨S1x300, .f32⟩
  | 10 => ⟨S1x10, .f32⟩
  | 11 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x300, .f32⟩
  | .local _ .vmem, ⟨5, _⟩ => ⟨S1x300, .f32⟩
  | .local _ .vmem, ⟨6, _⟩ => ⟨S300x300, .f32⟩
  | .local _ .vmem, ⟨7, _⟩ => ⟨S1x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S2000x300, .f32⟩
  | .local _ .vmem, ⟨12, _⟩ => ⟨S2000x300, .f32⟩
  | .local _ .vmem, ⟨13, _⟩ => ⟨S2000x300, .f32⟩
  | .local _ .vmem, ⟨14, _⟩ => ⟨S300x300, .f32⟩
  | .local _ .vmem, ⟨15, _⟩ => ⟨S1x300, .f32⟩
  | .local _ .vmem, ⟨16, _⟩ => ⟨S300x300, .f32⟩
  | .local _ .vmem, ⟨17, _⟩ => ⟨S1x300, .f32⟩
  | .local _ .vmem, ⟨18, _⟩ => ⟨S2000x300, .f32⟩
  | .local _ .vmem, ⟨19, _⟩ => ⟨S2000x300, .f32⟩
  | .local _ .vmem, ⟨20, _⟩ => ⟨S2000x300, .f32⟩
  | .local _ .vmem, ⟨21, _⟩ => ⟨S2000x300, .f32⟩
  | .local _ .vmem, ⟨22, _⟩ => ⟨S2000x300, .f32⟩
  | .local _ .vmem, ⟨23, _⟩ => ⟨S2000x300, .f32⟩
  | .local _ .vmem, ⟨24, _⟩ => ⟨S300x300, .f32⟩
  | .local _ .vmem, ⟨25, _⟩ => ⟨S1x300, .f32⟩
  | .local _ .vmem, ⟨26, _⟩ => ⟨S300x300, .f32⟩
  | .local _ .vmem, ⟨27, _⟩ => ⟨S1x300, .f32⟩
  | .local _ .vmem, ⟨28, _⟩ => ⟨S2000x300, .f32⟩
  | .local _ .vmem, ⟨29, _⟩ => ⟨S2000x300, .f32⟩
  | .local _ .vmem, ⟨30, _⟩ => ⟨S2000x300, .f32⟩
  | .local _ .vmem, ⟨31, _⟩ => ⟨S2000x300, .f32⟩
  | .local _ .vmem, ⟨32, _⟩ => ⟨S2000x300, .f32⟩
  | .local _ .vmem, ⟨33, _⟩ => ⟨S2000x300, .f32⟩
  | .local _ .vmem, ⟨34, _⟩ => ⟨S300x300, .f32⟩
  | .local _ .vmem, ⟨35, _⟩ => ⟨S1x300, .f32⟩
  | .local _ .vmem, ⟨36, _⟩ => ⟨S300x300, .f32⟩
  | .local _ .vmem, ⟨37, _⟩ => ⟨S1x300, .f32⟩
  | .local _ .vmem, ⟨38, _⟩ => ⟨S2000x300, .f32⟩
  | .local _ .vmem, ⟨39, _⟩ => ⟨S2000x300, .f32⟩
  | .local _ .vmem, ⟨40, _⟩ => ⟨S2000x300, .f32⟩
  | .local _ .vmem, ⟨41, _⟩ => ⟨S2000x300, .f32⟩
  | .local _ .vmem, ⟨42, _⟩ => ⟨S2000x300, .f32⟩
  | .local _ .vmem, ⟨43, _⟩ => ⟨S2000x300, .f32⟩
  | .local _ .vmem, ⟨44, _⟩ => ⟨S300x300, .f32⟩
  | .local _ .vmem, ⟨45, _⟩ => ⟨S1x300, .f32⟩
  | .local _ .vmem, ⟨46, _⟩ => ⟨S300x300, .f32⟩
  | .local _ .vmem, ⟨47, _⟩ => ⟨S1x300, .f32⟩
  | .local _ .vmem, ⟨48, _⟩ => ⟨S2000x300, .f32⟩
  | .local _ .vmem, ⟨49, _⟩ => ⟨S2000x300, .f32⟩
  | .local _ .vmem, ⟨50, _⟩ => ⟨S2000x300, .f32⟩
  | .local _ .vmem, ⟨51, _⟩ => ⟨S2000x300, .f32⟩
  | .local _ .vmem, ⟨52, _⟩ => ⟨S2000x1, .i32⟩
  | .local _ .vmem, ⟨53, _⟩ => ⟨S2000x1, .i32⟩
  | .local _ .vmem, ⟨54, _⟩ => ⟨S512x300, .f32⟩
  | .local _ .vmem, ⟨55, _⟩ => ⟨S512x300, .f32⟩
  | .local _ .vmem, ⟨56, _⟩ => ⟨S512x300, .f32⟩
  | .local _ .vmem, ⟨57, _⟩ => ⟨S300x300, .f32⟩
  | .local _ .vmem, ⟨58, _⟩ => ⟨S1x300, .f32⟩
  | .local _ .vmem, ⟨59, _⟩ => ⟨S1x300, .f32⟩
  | .local _ .vmem, ⟨60, _⟩ => ⟨S1x300, .f32⟩
  | .local _ .vmem, ⟨61, _⟩ => ⟨S300x10, .f32⟩
  | .local _ .vmem, ⟨62, _⟩ => ⟨S1x10, .f32⟩
  | .local _ .vmem, ⟨63, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_7 : Ref sig .tc := ⟨.hbm, 93, rfl⟩
abbrev main_v67 : Ref sig .tc := ⟨.hbm, 94, rfl⟩
abbrev main_v68 : Ref sig .tc := ⟨.hbm, 95, rfl⟩
abbrev main_c_8 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_10 : Ref sig .tc := ⟨.hbm, 117, rfl⟩
abbrev main_v88 : Ref sig .tc := ⟨.hbm, 118, rfl⟩
abbrev main_v89 : Ref sig .tc := ⟨.hbm, 119, rfl⟩
abbrev main_c_11 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_12 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_scratch0 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc6_sem0_0 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x300 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S300x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x300 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S300x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S300x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x300 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x300 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S300x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S300x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x300 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x300 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x300 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S300x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x300 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S300x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S300_S1x300 : S300.ShapeCasts S1x300
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x300_S128x300_0_0 : ∀ a, (![0, 0] : Fin 2 → Nat) a + S128x300.size a ≤ S128x300.size a
  h_S128x300 : 0 < S128x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S300x300_S300x300_0_0 : ∀ a, (![0, 0] : Fin 2 → Nat) a + S300x300.size a ≤ S300x300.size a
  h_S300x300 : 0 < S300x300.numel
  inb_S2000x300_S2000x300_0_0 : ∀ a, (![0, 0] : Fin 2 → Nat) a + S2000x300.size a ≤ S2000x300.size a
  h_S2000x300 : 0 < S2000x300.numel
  slices_S4x300x300_S1x300x300_0_0_0 : S4x300x300.Slices ![0, 0, 0] S1x300x300
  shapeCasts_S1x300x300_S300x300 : S1x300x300.ShapeCasts S300x300
  slices_S4x300_S1x300_0_0 : S4x300.Slices ![0, 0] S1x300
  shapeCasts_S1x300_S300 : S1x300.ShapeCasts S300
  bcast_S_S50000x300 : S_.BroadcastsInDim S50000x300 (![] : Fin 0 → Fin S50000x300.rank)
  shapeCasts_S2000x300_S2000x300 : S2000x300.ShapeCasts S2000x300
  shapeCasts_S300x300_S300x300 : S300x300.ShapeCasts S300x300
  slices_S4x300x300_S1x300x300_1_0_0 : S4x300x300.Slices ![1, 0, 0] S1x300x300
  slices_S4x300_S1x300_1_0 : S4x300.Slices ![1, 0] S1x300
  slices_S4x300x300_S1x300x300_2_0_0 : S4x300x300.Slices ![2, 0, 0] S1x300x300
  slices_S4x300_S1x300_2_0 : S4x300.Slices ![2, 0] S1x300
  slices_S4x300x300_S1x300x300_3_0_0 : S4x300x300.Slices ![3, 0, 0] S1x300x300
  slices_S4x300_S1x300_3_0 : S4x300.Slices ![3, 0] S1x300
  shapeCasts_S50000_S50000x1 : S50000.ShapeCasts S50000x1
  inb_S512x300_S512x300_0_0 : ∀ a, (![0, 0] : Fin 2 → Nat) a + S512x300.size a ≤ S512x300.size a
  h_S512x300 : 0 < S512x300.numel
  shapeCasts_S512x300_S512x300 : S512x300.ShapeCasts S512x300
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  shapeCasts_S10_S1x10 : S10.ShapeCasts S1x10
  broadcasts_S1x300_S512x300 : S1x300.Broadcasts S512x300
  reduces_S512x300_S300 : S512x300.Reduces [0] S300
  inb_S300x10_S300x10_0_0 : ∀ a, (![0, 0] : Fin 2 → Nat) a + S300x10.size a ≤ S300x10.size a
  h_S300x10 : 0 < S300x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x300_S2000x300_1_0_0_1_n_n_wf : DotDims.WF S2000x128 S128x300 S2000x300 [1] [0] [0] [1] [] []
  dot_S2000x300_S300x300_S2000x300_1_0_0_1_n_n_wf : DotDims.WF S2000x300 S300x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x512_S2000x300_S512x300_0_0_1_1_n_n_wf : DotDims.WF S2000x512 S2000x300 S512x300 [0] [0] [1] [1] [] []
  dot_S512x300_S300x300_S512x300_1_0_0_1_n_n_wf : DotDims.WF S512x300 S300x300 S512x300 [1] [0] [0] [1] [] []
  dot_S512x300_S300x10_S512x10_1_0_0_1_n_n_wf : DotDims.WF S512x300 S300x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x300.size a ≤ S128x300.size a
  hwx0_2 : ∀ i : grid0.Coords, EltTy.bits .f32 = 32 ∨ (Rect.block (s := S128x300) S128x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .f32 = 32 ∨ (Rect.block (s := S1x300) S1x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x300.size a ≤ S300x300.size a
  hwx0_4 : ∀ i : grid0.Coords, EltTy.bits .f32 = 32 ∨ (Rect.block (s := S300x300) S300x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x300.size a ≤ S50000x300.size a
  hwx0_6 : ∀ i : grid0.Coords, EltTy.bits .f32 = 32 ∨ (Rect.block (s := S50000x300) S2000x300.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x300.size a ≤ S300x300.size a
  hwx1_4 : ∀ i : grid1.Coords, EltTy.bits .f32 = 32 ∨ (Rect.block (s := S300x300) S300x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x300.size a ≤ S1x300.size a
  hwx1_5 : ∀ i : grid1.Coords, EltTy.bits .f32 = 32 ∨ (Rect.block (s := S1x300) S1x300.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x300.size a ≤ S50000x300.size a
  hwx1_6 : ∀ i : grid1.Coords, EltTy.bits .f32 = 32 ∨ (Rect.block (s := S50000x300) S2000x300.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S50000x300.size a
  hwx2_0 : ∀ i : grid2.Coords, EltTy.bits .f32 = 32 ∨ (Rect.block (s := S50000x300) S2000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S50000x300.size a
  hwx2_1 : ∀ i : grid2.Coords, EltTy.bits .f32 = 32 ∨ (Rect.block (s := S50000x300) S2000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S300x300.size a ≤ S300x300.size a
  hwx2_4 : ∀ i : grid2.Coords, EltTy.bits .f32 = 32 ∨ (Rect.block (s := S300x300) S300x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x300.size a ≤ S1x300.size a
  hwx2_5 : ∀ i : grid2.Coords, EltTy.bits .f32 = 32 ∨ (Rect.block (s := S1x300) S1x300.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x300.size a ≤ S50000x300.size a
  hwx2_6 : ∀ i : grid2.Coords, EltTy.bits .f32 = 32 ∨ (Rect.block (s := S50000x300) S2000x300.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S50000x300.size a
  hwx3_0 : ∀ i : grid3.Coords, EltTy.bits .f32 = 32 ∨ (Rect.block (s := S50000x300) S2000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S50000x300.size a
  hwx3_1 : ∀ i : grid3.Coords, EltTy.bits .f32 = 32 ∨ (Rect.block (s := S50000x300) S2000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S300x300.size a ≤ S300x300.size a
  hwx3_2 : ∀ i : grid3.Coords, EltTy.bits .f32 = 32 ∨ (Rect.block (s := S300x300) S300x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S300x300.size a ≤ S300x300.size a
  hwx3_4 : ∀ i : grid3.Coords, EltTy.bits .f32 = 32 ∨ (Rect.block (s := S300x300) S300x300.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x300.size a ≤ S1x300.size a
  hwx3_5 : ∀ i : grid3.Coords, EltTy.bits .f32 = 32 ∨ (Rect.block (s := S1x300) S1x300.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x300.size a ≤ S50000x300.size a
  hwx3_6 : ∀ i : grid3.Coords, EltTy.bits .f32 = 32 ∨ (Rect.block (s := S50000x300) S2000x300.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S50000x300.size a
  hwx4_0 : ∀ i : grid4.Coords, EltTy.bits .f32 = 32 ∨ (Rect.block (s := S50000x300) S2000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S50000x300.size a
  hwx4_1 : ∀ i : grid4.Coords, EltTy.bits .f32 = 32 ∨ (Rect.block (s := S50000x300) S2000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S300x300.size a ≤ S300x300.size a
  hwx4_2 : ∀ i : grid4.Coords, EltTy.bits .f32 = 32 ∨ (Rect.block (s := S300x300) S300x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x300.size a ≤ S1x300.size a
  hwx4_3 : ∀ i : grid4.Coords, EltTy.bits .f32 = 32 ∨ (Rect.block (s := S1x300) S1x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S300x300.size a ≤ S300x300.size a
  hwx4_4 : ∀ i : grid4.Coords, EltTy.bits .f32 = 32 ∨ (Rect.block (s := S300x300) S300x300.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x300.size a ≤ S1x300.size a
  hwx4_5 : ∀ i : grid4.Coords, EltTy.bits .f32 = 32 ∨ (Rect.block (s := S1x300) S1x300.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x300.size a ≤ S50000x300.size a
  hwx4_6 : ∀ i : grid4.Coords, EltTy.bits .f32 = 32 ∨ (Rect.block (s := S50000x300) S2000x300.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S50000x300.size a
  hwx5_0 : ∀ i : grid5.Coords, EltTy.bits .f32 = 32 ∨ (Rect.block (s := S50000x300) S2000x300.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .i32 = 32 ∨ (Rect.block (s := S50000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x300.size a ≤ S512x300.size a
  hwx5_2 : ∀ i : grid5.Coords, EltTy.bits .f32 = 32 ∨ (Rect.block (s := S512x300) S512x300.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x300.size a ≤ S512x300.size a
  hwx6_0 : ∀ i : grid6.Coords, EltTy.bits .f32 = 32 ∨ (Rect.block (s := S512x300) S512x300.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S300x300.size a ≤ S300x300.size a
  hwx6_1 : ∀ i : grid6.Coords, EltTy.bits .f32 = 32 ∨ (Rect.block (s := S300x300) S300x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x300.size a ≤ S1x300.size a
  hwx6_2 : ∀ i : grid6.Coords, EltTy.bits .f32 = 32 ∨ (Rect.block (s := S1x300) S1x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x300.size a ≤ S1x300.size a
  hwx6_3 : ∀ i : grid6.Coords, EltTy.bits .f32 = 32 ∨ (Rect.block (s := S1x300) S1x300.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x300.size a ≤ S1x300.size a
  hwx6_4 : ∀ i : grid6.Coords, EltTy.bits .f32 = 32 ∨ (Rect.block (s := S1x300) S1x300.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S300x10.size a ≤ S300x10.size a
  hwx6_5 : ∀ i : grid6.Coords, EltTy.bits .f32 = 32 ∨ (Rect.block (s := S300x10) S300x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x10.size a ≤ S1x10.size a
  hwx6_6 : ∀ i : grid6.Coords, EltTy.bits .f32 = 32 ∨ (Rect.block (s := S1x10) S1x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x10.size a ≤ S512x10.size a
  hwx6_7 : ∀ i : grid6.Coords, EltTy.bits .f32 = 32 ∨ (Rect.block (s := S512x10) S512x10.size (cc6_transform_7 i) (hinb6_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x512_S2000x300_S512x300_0_0_1_1_n_n : DotDims S2000x512 S2000x300 S512x300 where
  lhsContracting := [0]
  rhsContracting := [0]
  lhsNonContracting := [1]
  rhsNonContracting := [1]
  lhsBatch := []
  rhsBatch := []
  wf := dot_S2000x512_S2000x300_S512x300_0_0_1_1_n_n_wf
def dot_S512x300_S300x300_S512x300_1_0_0_1_n_n : DotDims S512x300 S300x300 S512x300 where
  lhsContracting := [1]
  rhsContracting := [0]
  lhsNonContracting := [0]
  rhsNonContracting := [1]
  lhsBatch := []
  rhsBatch := []
  wf := dot_S512x300_S300x300_S512x300_1_0_0_1_n_n_wf
def dot_S512x300_S300x10_S512x10_1_0_0_1_n_n : DotDims S512x300 S300x10 S512x10 where
  lhsContracting := [1]
  rhsContracting := [0]
  lhsNonContracting := [0]
  rhsNonContracting := [1]
  lhsBatch := []
  rhsBatch := []
  wf := dot_S512x300_S300x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S300x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x300.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S300x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x300.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S300x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S2000x300.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S300x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S300x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x300.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S2000x300.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S300x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S300x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S1x300.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S2000x300.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v100) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S512x300.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v102) S512x300.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S300x300.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S1x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v104) S1x300.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v105) S1x300.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S300x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v106) S1x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v107) S512x10.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S128x300 : Shape := ⟨2, ![128, 300]⟩
abbrev S300 : Shape := ⟨1, ![300]⟩
abbrev S300x300 : Shape := ⟨2, ![300, 300]⟩
abbrev S4x300x300 : Shape := ⟨3, ![4, 300, 300]⟩
abbrev S4x300 : Shape := ⟨2, ![4, 300]⟩
abbrev S300x10 : Shape := ⟨2, ![300, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x300 : Shape := ⟨2, ![50000, 300]⟩
abbrev S1x300 : Shape := ⟨2, ![1, 300]⟩
abbrev S1x300x300 : Shape := ⟨3, ![1, 300, 300]⟩
abbrev S800000x300 : Shape := ⟨2, ![800000, 300]⟩
abbrev S512x300 : Shape := ⟨2, ![512, 300]⟩
abbrev S50000x1 : Shape := ⟨2, ![50000, 1]⟩
abbrev S512x10 : Shape := ⟨2, ![512, 10]⟩
abbrev S1x10 : Shape := ⟨2, ![1, 10]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S128x300, .f32⟩
  | 2 => ⟨S300, .f32⟩
  | 3 => ⟨S300x300, .f32⟩
  | 4 => ⟨S300, .f32⟩
  | 5 => ⟨S4x300x300, .f32⟩
  | 6 => ⟨S4x300, .f32⟩
  | 7 => ⟨S4x300x300, .f32⟩
  | 8 => ⟨S4x300, .f32⟩
  | 9 => ⟨S300x300, .f32⟩
  | 10 => ⟨S300, .f32⟩
  | 11 => ⟨S300, .f32⟩
  | 12 => ⟨S300, .f32⟩
  | 13 => ⟨S300x10, .f32⟩
  | 14 => ⟨S10, .f32⟩
  | 15 => ⟨S2x800000, .i32⟩
  | 16 => ⟨S50000, .i32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x300, .f32⟩
  | 36 => ⟨S1x300, .f32⟩
  | 37 => ⟨S50000x300, .f32⟩
  | 38 => ⟨S50000x300, .f32⟩
  | 39 => ⟨S_, .f32⟩
  | 40 => ⟨S50000x300, .f32⟩
  | 41 => ⟨S50000x300, .f32⟩
  | 42 => ⟨S50000x300, .f32⟩
  | 43 => ⟨S1x300, .f32⟩
  | 44 => ⟨S50000x300, .f32⟩
  | 45 => ⟨S50000x300, .f32⟩
  | 46 => ⟨S_, .f32⟩
  | 47 => ⟨S50000x300, .f32⟩
  | 48 => ⟨S50000x300, .f32⟩
  | 49 => ⟨S1x300x300, .f32⟩
  | 50 => ⟨S300x300, .f32⟩
  | 51 => ⟨S1x300, .f32⟩
  | 52 => ⟨S300, .f32⟩
  | 53 => ⟨S1x300x300, .f32⟩
  | 54 => ⟨S300x300, .f32⟩
  | 55 => ⟨S1x300, .f32⟩
  | 56 => ⟨S300, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x300, .f32⟩
  | 66 => ⟨S_, .f32⟩
  | 67 => ⟨S50000x300, .f32⟩
  | 68 => ⟨S800000x1, .i32⟩
  | 69 => ⟨S50000x300, .f32⟩
  | 70 => ⟨S50000x300, .f32⟩
  | 71 => ⟨S50000x300, .f32⟩
  | 72 => ⟨S1x300, .f32⟩
  | 73 => ⟨S50000x300, .f32⟩
  | 74 => ⟨S50000x300, .f32⟩
  | 75 => ⟨S_, .f32⟩
  | 76 => ⟨S50000x300, .f32⟩
  | 77 => ⟨S50000x300, .f32⟩
  | 78 => ⟨S50000x300, .f32⟩
  | 79 => ⟨S1x300, .f32⟩
  | 80 => ⟨S50000x300, .f32⟩
  | 81 => ⟨S50000x300, .f32⟩
  | 82 => ⟨S_, .f32⟩
  | 83 => ⟨S50000x300, .f32⟩
  | 84 => ⟨S50000x300, .f32⟩
  | 85 => ⟨S1x300x300, .f32⟩
  | 86 => ⟨S300x300, .f32⟩
  | 87 => ⟨S1x300, .f32⟩
  | 88 => ⟨S300, .f32⟩
  | 89 => ⟨S1x300x300, .f32⟩
  | 90 => ⟨S300x300, .f32⟩
  | 91 => ⟨S1x300, .f32⟩
  | 92 => ⟨S300, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x300, .f32⟩
  | 102 => ⟨S_, .f32⟩
  | 103 => ⟨S50000x300, .f32⟩
  | 104 => ⟨S800000x1, .i32⟩
  | 105 => ⟨S50000x300, .f32⟩
  | 106 => ⟨S50000x300, .f32⟩
  | 107 => ⟨S50000x300, .f32⟩
  | 108 => ⟨S1x300, .f32⟩
  | 109 => ⟨S50000x300, .f32⟩
  | 110 => ⟨S50000x300, .f32⟩
  | 111 => ⟨S_, .f32⟩
  | 112 => ⟨S50000x300, .f32⟩
  | 113 => ⟨S50000x300, .f32⟩
  | 114 => ⟨S50000x300, .f32⟩
  | 115 => ⟨S1x300, .f32⟩
  | 116 => ⟨S50000x300, .f32⟩
  | 117 => ⟨S50000x300, .f32⟩
  | 118 => ⟨S_, .f32⟩
  | 119 => ⟨S50000x300, .f32⟩
  | 120 => ⟨S50000x300, .f32⟩
  | 121 => ⟨S1x300x300, .f32⟩
  | 122 => ⟨S300x300, .f32⟩
  | 123 => ⟨S1x300, .f32⟩
  | 124 => ⟨S300, .f32⟩
  | 125 => ⟨S1x300x300, .f32⟩
  | 126 => ⟨S300x300, .f32⟩
  | 127 => ⟨S1x300, .f32⟩
  | _ => ⟨S50000x128, .f32⟩

abbrev hbmTy0_1 (i : Nat) : BufTy := match i % 128 with
  | 0 => ⟨S300, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x300, .f32⟩
  | 10 => ⟨S_, .f32⟩
  | 11 => ⟨S50000x300, .f32⟩
  | 12 => ⟨S800000x1, .i32⟩
  | 13 => ⟨S50000x300, .f32⟩
  | 14 => ⟨S50000x300, .f32⟩
  | 15 => ⟨S50000x300, .f32⟩
  | 16 => ⟨S1x300, .f32⟩
  | 17 => ⟨S50000x300, .f32⟩
  | 18 => ⟨S50000x300, .f32⟩
  | 19 => ⟨S_, .f32⟩
  | 20 => ⟨S50000x300, .f32⟩
  | 21 => ⟨S50000x300, .f32⟩
  | 22 => ⟨S50000x300, .f32⟩
  | 23 => ⟨S1x300, .f32⟩
  | 24 => ⟨S50000x300, .f32⟩
  | 25 => ⟨S50000x300, .f32⟩
  | 26 => ⟨S_, .f32⟩
  | 27 => ⟨S50000x300, .f32⟩
  | 28 => ⟨S50000x300, .f32⟩
  | 29 => ⟨S1x300x300, .f32⟩
  | 30 => ⟨S300x300, .f32⟩
  | 31 => ⟨S1x300, .f32⟩
  | 32 => ⟨S300, .f32⟩
  | 33 => ⟨S1x300x300, .f32⟩
  | 34 => ⟨S300x300, .f32⟩
  | 35 => ⟨S1x300, .f32⟩
  | 36 => ⟨S300, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x300, .f32⟩
  | 46 => ⟨S_, .f32⟩
  | 47 => ⟨S50000x300, .f32⟩
  | 48 => ⟨S800000x1, .i32⟩
  | 49 => ⟨S50000x300, .f32⟩
  | 50 => ⟨S50000x300, .f32⟩
  | 51 => ⟨S50000x300, .f32⟩
  | 52 => ⟨S1x300, .f32⟩
  | 53 => ⟨S50000x300, .f32⟩
  | 54 => ⟨S50000x300, .f32⟩
  | 55 => ⟨S_, .f32⟩
  | 56 => ⟨S50000x300, .f32⟩
  | 57 => ⟨S50000x300, .f32⟩
  | 58 => ⟨S50000x300, .f32⟩
  | 59 => ⟨S1x300, .f32⟩
  | 60 => ⟨S50000x300, .f32⟩
  | 61 => ⟨S50000x300, .f32⟩
  | 62 => ⟨S_, .f32⟩
  | 63 => ⟨S50000x300, .f32⟩
  | 64 => ⟨S50000x300, .f32⟩
  | 65 => ⟨S_, .f32⟩
  | 66 => ⟨S512x300, .f32⟩
  | 67 => ⟨S50000x1, .i32⟩
  | 68 => ⟨S512x300, .f32⟩
  | 69 => ⟨S512x300, .f32⟩
  | 70 => ⟨S1x300, .f32⟩
  | 71 => ⟨S512x300, .f32⟩
  | 72 => ⟨S512x300, .f32⟩
  | 73 => ⟨S_, .f32⟩
  | 74 => ⟨S300, .f32⟩
  | 75 => ⟨S_, .f32⟩
  | 76 => ⟨S300, .f32⟩
  | 77 => ⟨S300, .f32⟩
  | 78 => ⟨S1x300, .f32⟩
  | 79 => ⟨S512x300, .f32⟩
  | 80 => ⟨S512x300, .f32⟩
  | 81 => ⟨S512x300, .f32⟩
  | 82 => ⟨S_, .f32⟩
  | 83 => ⟨S300, .f32⟩
  | 84 => ⟨S_, .f32⟩
  | 85 => ⟨S300, .f32⟩
  | 86 => ⟨S300, .f32⟩
  | 87 => ⟨S1x300, .f32⟩
  | 88 => ⟨S512x300, .f32⟩
  | 89 => ⟨S512x300, .f32⟩
  | 90 => ⟨S_, .f32⟩
  | 91 => ⟨S300, .f32⟩
  | 92 => ⟨S300, .f32⟩
  | 93 => ⟨S300, .f32⟩
  | 94 => ⟨S1x300, .f32⟩
  | 95 => ⟨S512x300, .f32⟩
  | 96 => ⟨S512x300, .f32⟩
  | 97 => ⟨S1x300, .f32⟩
  | 98 => ⟨S512x300, .f32⟩
  | 99 => ⟨S512x300, .f32⟩
  | 100 => ⟨S1x300, .f32⟩
  | 101 => ⟨S512x300, .f32⟩
  | 102 => ⟨S512x300, .f32⟩
  | 103 => ⟨S_, .f32⟩
  | 104 => ⟨S512x300, .f32⟩
  | 105 => ⟨S512x300, .f32⟩
  | 106 => ⟨S512x10, .f32⟩
  | 107 => ⟨S1x10, .f32⟩
  | 108 => ⟨S512x10, .f32⟩
  | 109 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_8 : Ref sig .tc := ⟨.hbm, 93, rfl⟩
abbrev main_v66 : Ref sig .tc := ⟨.hbm, 94, rfl⟩
abbrev main_v67 : Ref sig .tc := ⟨.hbm, 95, rfl⟩
abbrev main_c_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_12 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_13 : Ref sig .tc := ⟨.hbm, 129, rfl⟩
abbrev main_v97 : Ref sig .tc := ⟨.hbm, 130, rfl⟩
abbrev main_v98 : Ref sig .tc := ⟨.hbm, 131, rfl⟩
abbrev main_c_14 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_15 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_16 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_17 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_c_18 : Ref sig .tc := ⟨.hbm, 165, rfl⟩
abbrev main_v128 : Ref sig .tc := ⟨.hbm, 166, rfl⟩
abbrev main_v129 : Ref sig .tc := ⟨.hbm, 167, rfl⟩
abbrev main_c_19 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_20 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_21 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_22 : Ref sig .tc := ⟨.hbm, 190, rfl⟩
abbrev main_v149 : Ref sig .tc := ⟨.hbm, 191, rfl⟩
abbrev main_v150 : Ref sig .tc := ⟨.hbm, 192, rfl⟩
abbrev main_cst_23 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_24 : Ref sig .tc := ⟨.hbm, 201, rfl⟩
abbrev main_v158 : Ref sig .tc := ⟨.hbm, 202, rfl⟩
abbrev main_cst_25 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_26 : Ref sig .tc := ⟨.hbm, 210, rfl⟩
abbrev main_v165 : Ref sig .tc := ⟨.hbm, 211, rfl⟩
abbrev main_cst_27 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_28 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_29 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  slices_S4x300x300_S1x300x300_0_0_0 : S4x300x300.Slices ![0, 0, 0] S1x300x300
  shapeCasts_S1x300x300_S300x300 : S1x300x300.ShapeCasts S300x300
  slices_S4x300_S1x300_0_0 : S4x300.Slices ![0, 0] S1x300
  shapeCasts_S1x300_S300 : S1x300.ShapeCasts S300
  slices_S4x300x300_S1x300x300_1_0_0 : S4x300x300.Slices ![1, 0, 0] S1x300x300
  slices_S4x300_S1x300_1_0 : S4x300.Slices ![1, 0] S1x300
  slices_S4x300x300_S1x300x300_2_0_0 : S4x300x300.Slices ![2, 0, 0] S1x300x300
  slices_S4x300_S1x300_2_0 : S4x300.Slices ![2, 0] S1x300
  slices_S4x300x300_S1x300x300_3_0_0 : S4x300x300.Slices ![3, 0, 0] S1x300x300
  slices_S4x300_S1x300_3_0 : S4x300.Slices ![3, 0] S1x300
  bcast_S_S512x300 : S_.BroadcastsInDim S512x300 (![] : Fin 0 → Fin S512x300.rank)
  bcast_S50000_S50000x1_0 : S50000.BroadcastsInDim S50000x1 (![0] : Fin 1 → Fin S50000x1.rank)
  bcast_S1x300_S512x300_0_1 : S1x300.BroadcastsInDim S512x300 (![0, 1] : Fin 2 → Fin S512x300.rank)
  reducesTo_S512x300_S300_d0 : S512x300.ReducesTo [0] S300
  h_S_ : 0 < S_.numel
  bcast_S_S300 : S_.BroadcastsInDim S300 (![] : Fin 0 → Fin S300.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x300_S50000x300_1_0_0_1_n_n_wf : DotDims.WF S50000x128 S128x300 S50000x300 [1] [0] [0] [1] [] []
  dot_S50000x300_S300x300_S50000x300_1_0_0_1_n_n_wf : DotDims.WF S50000x300 S300x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  scatter_S512x300_S50000x1_S50000x300_1_0_0_1_wf : ScatterDims.WF S512x300 S50000x1 S50000x300 [1] [0] [0] 1
  dot_S512x300_S300x300_S512x300_1_0_0_1_n_n_wf : DotDims.WF S512x300 S300x300 S512x300 [1] [0] [0] [1] [] []
  dot_S512x300_S300x10_S512x10_1_0_0_1_n_n_wf : DotDims.WF S512x300 S300x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def scatter_S512x300_S50000x1_S50000x300_1_0_0_1 : ScatterDims S512x300 S50000x1 S50000x300 where
  updateWindowDims := [1]
  insertedWindowDims := [0]
  scatterDimsToOperandDims := [0]
  indexVectorDim := 1
  wf := scatter_S512x300_S50000x1_S50000x300_1_0_0_1_wf
def dot_S512x300_S300x300_S512x300_1_0_0_1_n_n : DotDims S512x300 S300x300 S512x300 where
  lhsContracting := [1]
  rhsContracting := [0]
  lhsNonContracting := [0]
  rhsNonContracting := [1]
  lhsBatch := []
  rhsBatch := []
  wf := dot_S512x300_S300x300_S512x300_1_0_0_1_n_n_wf
def dot_S512x300_S300x10_S512x10_1_0_0_1_n_n : DotDims S512x300 S300x10 S512x10 where
  lhsContracting := [1]
  rhsContracting := [0]
  lhsNonContracting := [0]
  rhsNonContracting := [1]
  lhsBatch := []
  rhsBatch := []
  wf := dot_S512x300_S300x10_S512x10_1_0_0_1_n_n_wf

class Facts : Prop extends Facts₀ where

variable [Facts]
-- ==== Proof.K.Mlp0.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x300 := Rect.unit (s := S2000x300) ![0, 0] S2000x300.size inb_S2000x300_S2000x300_0_0

def out0_6 (xa xb : Vec F S2000x128 .f32) (xc : Vec F S128x300 .f32) (xd : Vec F S1x300 .f32) (xe : Vec F S300x300 .f32) (xf : Vec F S1x300 .f32) : Vec F S2000x300 .f32 :=
  View.canon [⟨r0_0, k0_pay1 (View.ld xa (Rect.unit (s := S2000x128) ![0, 0] S2000x128.size inb_S2000x128_S2000x128_0_0)) (View.ld xb (Rect.unit (s := S2000x128) ![0, 0] S2000x128.size inb_S2000x128_S2000x128_0_0)) (View.ld xc (Rect.unit (s := S128x300) ![0, 0] S128x300.size inb_S128x300_S128x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel0 (c : Dev nD) (t : Fin cfg0.N) {xa xb : Vec F S2000x128 .f32} {xc : Vec F S128x300 .f32} {xd xf : Vec F S1x300 .f32} {xe : Vec F S300x300 .f32} {K : PUnit → sProp 𝕄} {I : sProp 𝕄 → sProp 𝕄}
    (hI : I = fun R => iprop(owns c.tc (st0_0 t) fullShare xa ∗ owns c.tc (st0_1 t) fullShare xb ∗ owns c.tc (st0_2 t) fullShare xc ∗ owns c.tc (st0_3 t) fullShare xd ∗ owns c.tc (st0_4 t) fullShare xe ∗ owns c.tc (st0_5 t) fullShare xf ∗ R)) :
    iprop(I iprop(∃ d, owns c.tc (st0_6 t) fullShare d) ∗ (I (owns c.tc (st0_6 t) fullShare (out0_6 xa xb xc xd xe xf)) -∗ K ⟨⟩))
      ⊢ wp frame (wpE (defs₀ (F := F)) Variants.none c none) Set.univ (bodyAt0 t) K := by
  subst hI
  unfold bodyAt0
  simp only [cc0__gin_mlp_kernel_eq_skeleton]; unfold cc0__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat0 (c : Dev nD) : Dat τ (Elt F) Unit ℕ (UR sig nD τ) ℕ cfg0 c where
  A w := V c (Pipeline.arrRef spec0 w)
  after w t := match w with
    | ⟨0, _⟩ | ⟨1, _⟩ | ⟨2, _⟩ | ⟨3, _⟩ | ⟨4, _⟩ | ⟨5, _⟩ => iblk0 V c _ t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by
  dsimp only [dat0]

-- Each input window holds before the body what it holds after it.
theorem before0 (c : Dev nD) (w : Fin cfg0.W) (hw : w ≠ 6) (t : Fin cfg0.N) (d) : (dat0 V c).before w t d = (dat0 V c).after w t :=
  match w, hw with
  | ⟨0, _⟩, _ | ⟨1, _⟩, _ | ⟨2, _⟩, _ | ⟨3, _⟩, _ | ⟨4, _⟩, _ | ⟨5, _⟩, _ =>
    (dat0 V c).before_in_eq_fetched _ rfl (fun _ => rfl) (fun _ _ _ => rfl) (fun _ => rfl) t d
  | ⟨6, _⟩, h => absurd rfl h

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_6]
  simp (disch := decide) only [before0 V c]
  show _ ⊢ wp _ _ _ (bodyAt0 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel0 c t rfl)
  iframe
  isplitl [Hg]; · iexists _; iexact Hg
  iintro H; iexact H

end Cert.Kernel.Hand

end
-- ==== Proof.K.Mlp1.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x300 := Rect.unit (s := S2000x300) ![0, 0] S2000x300.size inb_S2000x300_S2000x300_0_0

def out1_6 (xa xb : Vec F S2000x300 .f32) (xc : Vec F S300x300 .f32) (xd : Vec F S1x300 .f32) (xe : Vec F S300x300 .f32) (xf : Vec F S1x300 .f32) : Vec F S2000x300 .f32 :=
  View.canon [⟨r1_0, k1_pay1 (View.ld xa r1_0) (View.ld xb r1_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel1 (c : Dev nD) (t : Fin cfg1.N) {xa xb : Vec F S2000x300 .f32} {xc xe : Vec F S300x300 .f32} {xd xf : Vec F S1x300 .f32} {K : PUnit → sProp 𝕄} {I : sProp 𝕄 → sProp 𝕄}
    (hI : I = fun R => iprop(owns c.tc (st1_0 t) fullShare xa ∗ owns c.tc (st1_1 t) fullShare xb ∗ owns c.tc (st1_2 t) fullShare xc ∗ owns c.tc (st1_3 t) fullShare xd ∗ owns c.tc (st1_4 t) fullShare xe ∗ owns c.tc (st1_5 t) fullShare xf ∗ R)) :
    iprop(I iprop(∃ d, owns c.tc (st1_6 t) fullShare d) ∗ (I (owns c.tc (st1_6 t) fullShare (out1_6 xa xb xc xd xe xf)) -∗ K ⟨⟩))
      ⊢ wp frame (wpE (defs₀ (F := F)) Variants.none c none) Set.univ (bodyAt1 t) K := by
  subst hI
  unfold bodyAt1
  simp only [cc1__gin_mlp_kernel_eq_skeleton]; unfold cc1__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat1 (c : Dev nD) : Dat τ (Elt F) Unit ℕ (UR sig nD τ) ℕ cfg1 c where
  A w := V c (Pipeline.arrRef spec1 w)
  after w t := match w with
    | ⟨0, _⟩ | ⟨1, _⟩ | ⟨2, _⟩ | ⟨3, _⟩ | ⟨4, _⟩ | ⟨5, _⟩ => iblk1 V c _ t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by
  dsimp only [dat1]

-- Each input window holds before the body what it holds after it.
theorem before1 (c : Dev nD) (w : Fin cfg1.W) (hw : w ≠ 6) (t : Fin cfg1.N) (d) : (dat1 V c).before w t d = (dat1 V c).after w t :=
  match w, hw with
  | ⟨0, _⟩, _ | ⟨1, _⟩, _ | ⟨2, _⟩, _ | ⟨3, _⟩, _ | ⟨4, _⟩, _ | ⟨5, _⟩, _ =>
    (dat1 V c).before_in_eq_fetched _ rfl (fun _ => rfl) (fun _ _ _ => rfl) (fun _ => rfl) t d
  | ⟨6, _⟩, h => absurd rfl h

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl, after1_6]
  simp (disch := decide) only [before1 V c]
  show _ ⊢ wp _ _ _ (bodyAt1 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel1 c t rfl)
  iframe
  isplitl [Hg]; · iexists _; iexact Hg
  iintro H; iexact H

end Cert.Kernel.Hand

end
-- ==== Proof.K.Mlp2.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x300 := Rect.unit (s := S2000x300) ![0, 0] S2000x300.size inb_S2000x300_S2000x300_0_0

def out2_6 (xa xb : Vec F S2000x300 .f32) (xc : Vec F S300x300 .f32) (xd : Vec F S1x300 .f32) (xe : Vec F S300x300 .f32) (xf : Vec F S1x300 .f32) : Vec F S2000x300 .f32 :=
  View.canon [⟨r2_0, k2_pay1 (View.ld xa r2_0) (View.ld xb r2_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel2 (c : Dev nD) (t : Fin cfg2.N) {xa xb : Vec F S2000x300 .f32} {xc xe : Vec F S300x300 .f32} {xd xf : Vec F S1x300 .f32} {K : PUnit → sProp 𝕄} {I : sProp 𝕄 → sProp 𝕄}
    (hI : I = fun R => iprop(owns c.tc (st2_0 t) fullShare xa ∗ owns c.tc (st2_1 t) fullShare xb ∗ owns c.tc (st2_2 t) fullShare xc ∗ owns c.tc (st2_3 t) fullShare xd ∗ owns c.tc (st2_4 t) fullShare xe ∗ owns c.tc (st2_5 t) fullShare xf ∗ R)) :
    iprop(I iprop(∃ d, owns c.tc (st2_6 t) fullShare d) ∗ (I (owns c.tc (st2_6 t) fullShare (out2_6 xa xb xc xd xe xf)) -∗ K ⟨⟩))
      ⊢ wp frame (wpE (defs₀ (F := F)) Variants.none c none) Set.univ (bodyAt2 t) K := by
  subst hI
  unfold bodyAt2
  simp only [cc2__gin_mlp_kernel_eq_skeleton]; unfold cc2__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat2 (c : Dev nD) : Dat τ (Elt F) Unit ℕ (UR sig nD τ) ℕ cfg2 c where
  A w := V c (Pipeline.arrRef spec2 w)
  after w t := match w with
    | ⟨0, _⟩ | ⟨1, _⟩ | ⟨2, _⟩ | ⟨3, _⟩ | ⟨4, _⟩ | ⟨5, _⟩ => iblk2 V c _ t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by
  dsimp only [dat2]

-- Each input window holds before the body what it holds after it.
theorem before2 (c : Dev nD) (w : Fin cfg2.W) (hw : w ≠ 6) (t : Fin cfg2.N) (d) : (dat2 V c).before w t d = (dat2 V c).after w t :=
  match w, hw with
  | ⟨0, _⟩, _ | ⟨1, _⟩, _ | ⟨2, _⟩, _ | ⟨3, _⟩, _ | ⟨4, _⟩, _ | ⟨5, _⟩, _ =>
    (dat2 V c).before_in_eq_fetched _ rfl (fun _ => rfl) (fun _ _ _ => rfl) (fun _ => rfl) t d
  | ⟨6, _⟩, h => absurd rfl h

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl, after2_6]
  simp (disch := decide) only [before2 V c]
  show _ ⊢ wp _ _ _ (bodyAt2 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel2 c t rfl)
  iframe
  isplitl [Hg]; · iexists _; iexact Hg
  iintro H; iexact H

end Cert.Kernel.Hand

end
-- ==== Proof.K.Mlp3.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x300 := Rect.unit (s := S2000x300) ![0, 0] S2000x300.size inb_S2000x300_S2000x300_0_0

def out3_6 (xa xb : Vec F S2000x300 .f32) (xc : Vec F S300x300 .f32) (xd : Vec F S1x300 .f32) (xe : Vec F S300x300 .f32) (xf : Vec F S1x300 .f32) : Vec F S2000x300 .f32 :=
  View.canon [⟨r3_0, k3_pay1 (View.ld xa r3_0) (View.ld xb r3_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel3 (c : Dev nD) (t : Fin cfg3.N) {xa xb : Vec F S2000x300 .f32} {xc xe : Vec F S300x300 .f32} {xd xf : Vec F S1x300 .f32} {K : PUnit → sProp 𝕄} {I : sProp 𝕄 → sProp 𝕄}
    (hI : I = fun R => iprop(owns c.tc (st3_0 t) fullShare xa ∗ owns c.tc (st3_1 t) fullShare xb ∗ owns c.tc (st3_2 t) fullShare xc ∗ owns c.tc (st3_3 t) fullShare xd ∗ owns c.tc (st3_4 t) fullShare xe ∗ owns c.tc (st3_5 t) fullShare xf ∗ R)) :
    iprop(I iprop(∃ d, owns c.tc (st3_6 t) fullShare d) ∗ (I (owns c.tc (st3_6 t) fullShare (out3_6 xa xb xc xd xe xf)) -∗ K ⟨⟩))
      ⊢ wp frame (wpE (defs₀ (F := F)) Variants.none c none) Set.univ (bodyAt3 t) K := by
  subst hI
  unfold bodyAt3
  simp only [cc3__gin_mlp_kernel_eq_skeleton]; unfold cc3__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat3 (c : Dev nD) : Dat τ (Elt F) Unit ℕ (UR sig nD τ) ℕ cfg3 c where
  A w := V c (Pipeline.arrRef spec3 w)
  after w t := match w with
    | ⟨0, _⟩ | ⟨1, _⟩ | ⟨2, _⟩ | ⟨3, _⟩ | ⟨4, _⟩ | ⟨5, _⟩ => iblk3 V c _ t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by
  dsimp only [dat3]

-- Each input window holds before the body what it holds after it.
theorem before3 (c : Dev nD) (w : Fin cfg3.W) (hw : w ≠ 6) (t : Fin cfg3.N) (d) : (dat3 V c).before w t d = (dat3 V c).after w t :=
  match w, hw with
  | ⟨0, _⟩, _ | ⟨1, _⟩, _ | ⟨2, _⟩, _ | ⟨3, _⟩, _ | ⟨4, _⟩, _ | ⟨5, _⟩, _ =>
    (dat3 V c).before_in_eq_fetched _ rfl (fun _ => rfl) (fun _ _ _ => rfl) (fun _ => rfl) t d
  | ⟨6, _⟩, h => absurd rfl h

theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl, after3_6]
  simp (disch := decide) only [before3 V c]
  show _ ⊢ wp _ _ _ (bodyAt3 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel3 c t rfl)
  iframe
  isplitl [Hg]; · iexists _; iexact Hg
  iintro H; iexact H

end Cert.Kernel.Hand

end
-- ==== Proof.K.Mlp4.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x300 := Rect.unit (s := S2000x300) ![0, 0] S2000x300.size inb_S2000x300_S2000x300_0_0

def out4_6 (xa xb : Vec F S2000x300 .f32) (xc : Vec F S300x300 .f32) (xd : Vec F S1x300 .f32) (xe : Vec F S300x300 .f32) (xf : Vec F S1x300 .f32) : Vec F S2000x300 .f32 :=
  View.canon [⟨r4_0, k4_pay1 (View.ld xa r4_0) (View.ld xb r4_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel4 (c : Dev nD) (t : Fin cfg4.N) {xa xb : Vec F S2000x300 .f32} {xc xe : Vec F S300x300 .f32} {xd xf : Vec F S1x300 .f32} {K : PUnit → sProp 𝕄} {I : sProp 𝕄 → sProp 𝕄}
    (hI : I = fun R => iprop(owns c.tc (st4_0 t) fullShare xa ∗ owns c.tc (st4_1 t) fullShare xb ∗ owns c.tc (st4_2 t) fullShare xc ∗ owns c.tc (st4_3 t) fullShare xd ∗ owns c.tc (st4_4 t) fullShare xe ∗ owns c.tc (st4_5 t) fullShare xf ∗ R)) :
    iprop(I iprop(∃ d, owns c.tc (st4_6 t) fullShare d) ∗ (I (owns c.tc (st4_6 t) fullShare (out4_6 xa xb xc xd xe xf)) -∗ K ⟨⟩))
      ⊢ wp frame (wpE (defs₀ (F := F)) Variants.none c none) Set.univ (bodyAt4 t) K := by
  subst hI
  unfold bodyAt4
  simp only [cc4__gin_mlp_kernel_eq_skeleton]; unfold cc4__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat4 (c : Dev nD) : Dat τ (Elt F) Unit ℕ (UR sig nD τ) ℕ cfg4 c where
  A w := V c (Pipeline.arrRef spec4 w)
  after w t := match w with
    | ⟨0, _⟩ | ⟨1, _⟩ | ⟨2, _⟩ | ⟨3, _⟩ | ⟨4, _⟩ | ⟨5, _⟩ => iblk4 V c _ t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := rfl

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by
  dsimp only [dat4]

-- Each input window holds before the body what it holds after it.
theorem before4 (c : Dev nD) (w : Fin cfg4.W) (hw : w ≠ 6) (t : Fin cfg4.N) (d) : (dat4 V c).before w t d = (dat4 V c).after w t :=
  match w, hw with
  | ⟨0, _⟩, _ | ⟨1, _⟩, _ | ⟨2, _⟩, _ | ⟨3, _⟩, _ | ⟨4, _⟩, _ | ⟨5, _⟩, _ =>
    (dat4 V c).before_in_eq_fetched _ rfl (fun _ => rfl) (fun _ _ _ => rfl) (fun _ => rfl) t d
  | ⟨6, _⟩, h => absurd rfl h

theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_6]
  simp (disch := decide) only [before4 V c]
  show _ ⊢ wp _ _ _ (bodyAt4 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel4 c t rfl)
  iframe
  isplitl [Hg]; · iexists _; iexact Hg
  iintro H; iexact H

end Cert.Kernel.Hand

end
-- ==== Proof.K.Pool.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

-- The accumulator is reset at the first point only, and copied out at the last point only.
theorem hcond5 : ∀ t : Fin cfg5.N, (cond5_0 (grid5.coords t) ↔ t.val % 25 = 0) ∧ (cond5_1 (grid5.coords t) ↔ t.val % 25 = 24) := by decide +kernel

def sout5_A_0 (x0 : Vec F S2000x300 .f32) (x1 : Vec F S2000x1 .i32) : Vec F S512x300 .f32 :=
  k5_pay2 x1 x0 (k5_pay1 (F := F))
def sout5_B_0 (x0 : Vec F S2000x300 .f32) (x1 : Vec F S2000x1 .i32) (xs : Vec F S512x300 .f32) : Vec F S512x300 .f32 :=
  k5_pay2 x1 x0 xs
def sout5_C_0 (x0 : Vec F S2000x300 .f32) (x1 : Vec F S2000x1 .i32) (xs : Vec F S512x300 .f32) : Vec F S512x300 .f32 :=
  k5_pay2 x1 x0 xs
def out5_C_2 (x0 : Vec F S2000x300 .f32) (x1 : Vec F S2000x1 .i32) (xs : Vec F S512x300 .f32) : Vec F S512x300 .f32 :=
  k5_pay2 x1 x0 xs

section Kernel
variable (c : Dev nD) (E : Set ℕ) (i : grid5.Coords) (arg1 : Memref sig .tc .vmem S2000x300 .f32) (harg1 : arg1.IsWhole)
  (arg2 : Memref sig .tc .vmem S2000x1 .i32) (harg2 : arg2.IsWhole) (arg3 arg4 : Memref sig .tc .vmem S512x300 .f32)
  (harg3 : arg3.IsWhole) (harg4 : arg4.IsWhole) (x0 : Vec F S2000x300 .f32) (x1 : Vec F S2000x1 .i32) (xo xs : Vec F S512x300 .f32)

-- One triple for the three control paths: the accumulator restarts from zero where the first condition holds, and is copied to the output where the second does.
abbrev Triple5 (K : PUnit → sProp 𝕄) : Prop :=
  iprop(owns (c : Thread nD τ) arg1 fullShare x0 ∗ owns (c : Thread nD τ) arg2 fullShare x1 ∗ owns (c : Thread nD τ) arg3 fullShare xo
      ∗ owns (c : Thread nD τ) arg4 fullShare xs
      ∗ (iprop(owns (c : Thread nD τ) arg1 fullShare x0 ∗ owns (c : Thread nD τ) arg2 fullShare x1
          ∗ owns (c : Thread nD τ) arg3 fullShare (if cond5_1 i then sout5_B_0 x0 x1 xs else xo)
          ∗ owns (c : Thread nD τ) arg4 fullShare (if cond5_0 i then sout5_A_0 x0 x1 else sout5_B_0 x0 x1 xs)) -∗ K ⟨⟩))
    ⊢ wp frame (wpE (defs₀ (F := F)) Variants.none c none) E (cc5__pool_kernel i arg1 harg1 arg2 harg2 arg3 harg3 arg4 harg4) K

variable {c E arg1 harg1 arg2 harg2 arg3 arg4 harg3 harg4}

set_option maxHeartbeats 1000000 in
theorem sound_kernel5_A {K : PUnit → sProp 𝕄} (hc0 : cond5_0 i) (hc1 : ¬cond5_1 i) : Triple5 c E i arg1 harg1 arg2 harg2 arg3 arg4 harg3 harg4 x0 x1 xo xs K := by
  unfold Triple5; rw [if_pos hc0, if_neg hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact hf2
                  iexact H2
  iexists _; isplitr; swap; · iexact HS
  ipureintro
  sl_unfold_words
  rw [View.read_writes_eq_canon _ _ _ (fun y => ⟨_, List.mem_cons.mpr (Or.inl rfl), View.mem_set_unit_zero hz5 inb_S512x300_S512x300_0_0 y⟩)]
  rw [View.canon_cons_unit_zero (S := S512x300) hz5, View.readCov_unit_zero (S := S512x300) _ hz5]
  unfold sout5_A_0
  simp only [View.readAt_eq_ld, harg1.read_unread, harg2.read_unread, harg4.read_unread, View.ld_unit_zero (S := S2000x300) hz5,
    View.ld_unit_zero (S := S2000x1) hz5, View.ld_unit_zero (S := S512x300) hz5]

set_option maxHeartbeats 1000000 in
theorem sound_kernel5_B {K : PUnit → sProp 𝕄} (hc0 : ¬cond5_0 i) (hc1 : ¬cond5_1 i) : Triple5 c E i arg1 harg1 arg2 harg2 arg3 arg4 harg3 harg4 x0 x1 xo xs K := by
  unfold Triple5; rw [if_neg hc0, if_neg hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact hf2
                  iexact H2
  iexists _; isplitr; swap; · iexact HS
  ipureintro
  rw [View.read_writes_eq_canon _ _ _ (fun y => ⟨_, List.mem_cons.mpr (Or.inl rfl), View.mem_set_unit_zero hz5 inb_S512x300_S512x300_0_0 y⟩), View.canon_unit_zero hz5]
  unfold sout5_B_0
  simp only [View.readAt_eq_ld, harg1.read_unread, harg2.read_unread, harg4.read_unread, View.ld_unit_zero (S := S2000x300) hz5,
    View.ld_unit_zero (S := S2000x1) hz5, View.ld_unit_zero (S := S512x300) hz5]

set_option maxHeartbeats 1000000 in
theorem sound_kernel5_C {K : PUnit → sProp 𝕄} (hc0 : ¬cond5_0 i) (hc1 : cond5_1 i) : Triple5 c E i arg1 harg1 arg2 harg2 arg3 arg4 harg3 harg4 x0 x1 xo xs K := by
  unfold Triple5; rw [if_neg hc0, if_pos hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; · iexact H2
    ipureintro
    sl_unfold_words
    rw [View.read_writes_eq_canon _ _ _ (fun y => ⟨_, List.mem_cons.mpr (Or.inl rfl), View.mem_set_unit_zero hz5 inb_S512x300_S512x300_0_0 y⟩), View.canon_unit_zero hz5]
    rw [View.readCov_unit_zero (S := S512x300) _ hz5]
    unfold sout5_B_0
    simp only [View.readAt_eq_ld, harg1.read_unread, harg2.read_unread, harg4.read_unread, View.ld_unit_zero (S := S2000x300) hz5,
    View.ld_unit_zero (S := S2000x1) hz5, View.ld_unit_zero (S := S512x300) hz5]
  iexists _; isplitr; swap; · iexact HS
  ipureintro
  sl_unfold_words
  rw [View.read_writes_eq_canon _ _ _ (fun y => ⟨_, List.mem_cons.mpr (Or.inl rfl), View.mem_set_unit_zero hz5 inb_S512x300_S512x300_0_0 y⟩), View.canon_unit_zero hz5]
  unfold sout5_B_0
  simp only [View.readAt_eq_ld, harg1.read_unread, harg2.read_unread, harg4.read_unread, View.ld_unit_zero (S := S2000x300) hz5,
    View.ld_unit_zero (S := S2000x1) hz5, View.ld_unit_zero (S := S512x300) hz5]

theorem sound_kernel5 {K : PUnit → sProp 𝕄} (hne : cond5_0 i → ¬cond5_1 i) : Triple5 c E i arg1 harg1 arg2 harg2 arg3 arg4 harg3 harg4 x0 x1 xo xs K := by
  by_cases hc0 : cond5_0 i <;> by_cases hc1 : cond5_1 i
  exacts [absurd hc1 (hne hc0), sound_kernel5_A i x0 x1 xo xs hc0 hc1, sound_kernel5_C i x0 x1 xo xs hc0 hc1, sound_kernel5_B i x0 x1 xo xs hc0 hc1]

end Kernel

def out5_A_2 : Vec F S512x300 .f32 := View.canon []
def out5_B_2 : Vec F S512x300 .f32 := View.canon []

theorem sout5_A_0_eq (x0 : Vec F S2000x300 .f32) (x1 : Vec F S2000x1 .i32) :
    sout5_A_0 x0 x1 = k5_pay2 x1 x0 (k5_pay1 (F := F)) := rfl
theorem sout5_B_0_eq (x0 : Vec F S2000x300 .f32) (x1 : Vec F S2000x1 .i32) (xs : Vec F S512x300 .f32) :
    sout5_B_0 x0 x1 xs = k5_pay2 x1 x0 xs := rfl
theorem sout5_C_0_eq (x0 : Vec F S2000x300 .f32) (x1 : Vec F S2000x1 .i32) (xs : Vec F S512x300 .f32) :
    sout5_C_0 x0 x1 xs = k5_pay2 x1 x0 xs := rfl
theorem out5_C_2_eq (x0 : Vec F S2000x300 .f32) (x1 : Vec F S2000x1 .i32) (xs : Vec F S512x300 .f32) :
    out5_C_2 x0 x1 xs = k5_pay2 x1 x0 xs := rfl

theorem sched5 : ∀ t : Fin cfg5.N, (∀ w : Fin cfg5.W, w ≠ 2 → (cfg5.win w).fetch t = true ∧ cfg5.idle w (grid5.coords t) = false)
    ∧ (t.val % 25 = 24 → idle5 2 (grid5.coords t) = false)
    ∧ (¬t.val % 25 = 24 → idle5 2 (grid5.coords t) = true ∧ (win5 2).flush t = false) := by decide +kernel

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def outsAt5 (c : Dev nD) : (n : ℕ) → n < cfg5.N → Vec F S512x300 .f32 × Vec F S512x300 .f32
  | 0, hn => (out5_A_2, sout5_A_0 (iblk5 V c 0 ⟨0, hn⟩) (iblk5 V c 1 ⟨0, hn⟩))
  | n + 1, hn =>
    if (n + 1) % 25 = 0 then
      (out5_A_2, sout5_A_0 (iblk5 V c 0 ⟨n + 1, hn⟩) (iblk5 V c 1 ⟨n + 1, hn⟩))
    else
      if (n + 1) % 25 = 24 then
        (out5_C_2 (iblk5 V c 0 ⟨n + 1, hn⟩) (iblk5 V c 1 ⟨n + 1, hn⟩) (outsAt5 c n (Nat.lt_of_succ_lt hn)).2,
         sout5_C_0 (iblk5 V c 0 ⟨n + 1, hn⟩) (iblk5 V c 1 ⟨n + 1, hn⟩) (outsAt5 c n (Nat.lt_of_succ_lt hn)).2)
      else
        (out5_B_2, sout5_B_0 (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 25 = 0) (h24 : ¬t.val % 25 = 24) :
    outsAt5 V c t.val t.isLt = (out5_A_2, sout5_A_0 (iblk5 V c 0 t) (iblk5 V c 1 t)) := by
  obtain ⟨n, hn⟩ := t
  cases n with
  | zero => exact rfl
  | succ n => exact (if_pos h0).trans rfl

theorem outsAt5_B (c : Dev nD) (t : Fin cfg5.N) (h0 : ¬t.val % 25 = 0) (h24 : ¬t.val % 25 = 24) :
    outsAt5 V c t.val t.isLt = (out5_B_2, sout5_B_0 (iblk5 V c 0 t) (iblk5 V c 1 t)
      (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h24).trans rfl)

theorem outsAt5_C (c : Dev nD) (t : Fin cfg5.N) (h0 : ¬t.val % 25 = 0) (h24 : t.val % 25 = 24) :
    outsAt5 V c t.val t.isLt = (out5_C_2 (iblk5 V c 0 t) (iblk5 V c 1 t) (outsAt5 V c (t.val - 1) (Nat.lt_of_le_of_lt (Nat.sub_le _ _) t.isLt)).2,
      sout5_C_0 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h24).trans rfl)

-- The three cases as one equation over the accumulator `xs` the point before left, in the kernel triple's own terms.
theorem outsAt5_eq (c : Dev nD) (t : Fin cfg5.N) (xs : Vec F S512x300 .f32)
    (hxs : t.val ≠ 0 → xs = (outsAt5 V c (t.val - 1) (Nat.lt_of_le_of_lt (Nat.sub_le _ _) t.isLt)).2) :
    outsAt5 V c t.val t.isLt = (if cond5_1 (grid5.coords t) then sout5_B_0 (iblk5 V c 0 t) (iblk5 V c 1 t) xs else out5_A_2,
      if cond5_0 (grid5.coords t) then sout5_A_0 (iblk5 V c 0 t) (iblk5 V c 1 t) else sout5_B_0 (iblk5 V c 0 t) (iblk5 V c 1 t) xs) := by
  obtain ⟨e0, e1⟩ := hcond5 t
  by_cases h0 : t.val % 25 = 0
  · have h24 : ¬t.val % 25 = 24 := by omega
    rw [outsAt5_A V c t h0 h24, if_pos (e0.mpr h0), if_neg (mt e1.mp h24)]
  · obtain rfl := hxs fun h => h0 (by rw [h])
    by_cases h24 : t.val % 25 = 24
    · rw [outsAt5_C V c t h0 h24, if_neg (mt e0.mp h0), if_pos (e1.mpr h24)]; rfl
    · rw [outsAt5_B V c t h0 h24, if_neg (mt e0.mp h0), if_neg (mt e1.mp h24)]; rfl

abbrev scM5_0 : Memref sig .tc .vmem S512x300 .f32 := Memref.whole cc5_scratch0

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

-- The invariant before position `n`: the region's invariant, with the accumulator known to hold what the point before left once there is one.
def PhiS5 (c : Dev nD) (n : ℕ) (h : n ≤ cfg5.N) : sProp 𝕄 :=
  iprop(∃ xs, ⌜∀ hn : n ≠ 0, xs = (outsAt5 V c (n - 1) (by omega)).2⌝ ∗ iprop(iprop(owns (c : Thread nD τ) scM5_0 fullShare xs
      ∗ Pipeline.scopedRestBut (Ix := Unit) (Name := ℕ) (U := UR sig nD τ) (Lvl := ℕ) (Val := Elt F) spec5 c [cc5_scratch0]) ∗ (∃ r, prngReg c r)))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = (outsAt5 V c t.val t.isLt).1 := rfl

set_option maxHeartbeats 1000000 in
-- The invariant hands the body the accumulator and takes it back at this point's contents; the rest passes through unread.
theorem body_obligation5 (c : Dev nD) : BodyObligation (dat5 (F := F) V c) (defs₀ (F := F)) Variants.none () Set.univ := fun t => by
  obtain ⟨e0, e1⟩ := hcond5 t
  obtain ⟨hw, i2, i2'⟩ := sched5 t
  rw [bigSep_W5, bigSep_W5]
  simp (disch := (refine (hw _ ?_).1; decide)) only [Dat.before_fetched, (hw 0 (by decide)).2, (hw 1 (by decide)).2]
  rewrite [show (dat5 V c).owesAt () t.succ = (dat5 V c).owesAt () t.castSucc from rfl,
    show (dat5 V c).Φ t.castSucc = PhiS5 V c t.val (Nat.le_of_lt t.isLt) from rfl,
    show (dat5 V c).Φ t.succ = PhiS5 V c (t.val + 1) t.isLt from rfl]
  unfold PhiS5
  show _ ⊢ wp frame _ Set.univ (bodyAt5 t) _
  iintro ⟨⟨%xs, %hxs, ⟨HS, HR⟩, Hg⟩, Ho, ⟨%d0, H0⟩, ⟨%d1, H1⟩, ⟨%d2, H2⟩⟩
  have ho := outsAt5_eq V c t xs hxs
  have hne : cond5_0 (grid5.coords t) → ¬cond5_1 (grid5.coords t) := fun h0 h1 => by have := e0.mp h0; have := e1.mp h1; omega
  iapply sound_kernel5 (grid5.coords t) (iblk5 V c 0 t) (iblk5 V c 1 t) ((dat5 V c).before 2 t d2) xs hne
  isplitl [H0]; · iexact H0
  isplitl [H1]; · iexact H1
  isplitl [H2]; · iexact H2
  isplitl [HS]; · iexact HS
  iintro ⟨H0, H1, H2, HS⟩
  isplitl [HS HR Hg]
  · iexists _; isplitr; swap
    · isplitl [HS HR]; swap; · iexact Hg
      isplitl [HS]; · iexact HS
      iexact HR
    ipureintro; exact fun _ => (congrArg Prod.snd ho).symm
  isplitl [Ho]; · iexact Ho
  isplitl [H0]; · iexact H0
  isplitl [H1]; · iexact H1
  by_cases h24 : t.val % 25 = 24
  · simp only [i2 h24, if_pos (e1.mpr h24), show (dat5 V c).after 2 t = _ from congrArg Prod.fst ho]; iexact H2
  · simp only [i2' h24, if_neg (mt e1.mp h24)]; iexists _; iexact H2

theorem hin5 (c : Dev nD) : Pipeline.ΦA spec5 c ⊢ (dat5 V c).Φ 0 := by
  rw [PhiA5_eq]; show _ ⊢ PhiS5 V c 0 (Nat.zero_le _); unfold PhiS5
  iintro ⟨⟨⟨%d, HS⟩, HR⟩, Hg⟩
  iexists d; isplitr; · ipureintro; exact fun h => absurd rfl h
  isplitl [HS HR]; swap; · iexact Hg
  isplitl [HS]; · iexact HS
  iexact HR

theorem hout5 (c : Dev nD) : (dat5 V c).Φ (Fin.last cfg5.N) ⊢ Pipeline.ΦA spec5 c := by
  rw [PhiA5_eq]; show PhiS5 V c _ (Nat.le_of_lt_succ (Fin.last cfg5.N).isLt) ⊢ _; unfold PhiS5
  iintro ⟨%xs, %hxs, ⟨HS, HR⟩, Hg⟩
  isplitl [HS HR]; swap; · iexact Hg
  isplitl [HS]; · iexists _; iexact HS
  iexact HR

end Region

end Cert.Kernel.Hand

end
-- ==== Proof.K.Cls.lean ====
import proofs.«403831_j9380208574710_1_alg».proof.Proof.Gen.Kernel.Launch
import proofs.«403831_j9380208574710_1_alg».proof.Proof.Gen.Kernel.Skeleton
import proofs.«403831_j9380208574710_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_row : Rect S1x300 := Rect.unit (s := S1x300) ![0, 0] S1x300.size inb_S1x300_S1x300_0_0

def out6_7 (xa : Vec F S512x300 .f32) (xb : Vec F S300x300 .f32) (xc xd xe : Vec F S1x300 .f32)
    (xf : Vec F S300x10 .f32) (xg : Vec F S1x10 .f32) : Vec F S512x10 .f32 :=
  View.canon [⟨Rect.unit (s := S512x10) ![0, 0] S512x10.size inb_S512x10_S512x10_0_0, k6_pay1 (k6_pay2 (View.ld xa (Rect.unit (s := S512x300) ![0, 0] S512x300.size inb_S512x300_S512x300_0_0)) (View.ld xb (Rect.unit (s := S300x300) ![0, 0] S300x300.size inb_S300x300_S300x300_0_0)) (View.ld xc r6_row) (View.ld xd r6_row) (View.ld xe r6_row))
    (View.ld xf (Rect.unit (s := S300x10) ![0, 0] S300x10.size inb_S300x10_S300x10_0_0)) (View.ld xg (Rect.unit (s := S1x10) ![0, 0] S1x10.size inb_S1x10_S1x10_0_0))⟩]

-- The body leaves its seven inputs (their ownership `I`, named once) as they are and stores `out6_7` of them once.
theorem sound_kernel6 (c : Dev nD) (t : Fin cfg6.N) {x0 : Vec F S512x300 .f32} {x1 : Vec F S300x300 .f32} {x2 x3 x4 : Vec F S1x300 .f32}
    {x5 : Vec F S300x10 .f32} {x6 : Vec F S1x10 .f32} {K : PUnit → sProp 𝕄} {I : sProp 𝕄 → sProp 𝕄}
    (hI : I = fun R => iprop(owns c.tc (st6_0 t) fullShare x0 ∗ owns c.tc (st6_1 t) fullShare x1 ∗ owns c.tc (st6_2 t) fullShare x2 ∗ owns c.tc (st6_3 t) fullShare x3 ∗ owns c.tc (st6_4 t) fullShare x4 ∗ owns c.tc (st6_5 t) fullShare x5 ∗ owns c.tc (st6_6 t) fullShare x6 ∗ R)) :
    iprop(I iprop(∃ d, owns c.tc (st6_7 t) fullShare d) ∗ (I (owns c.tc (st6_7 t) fullShare (out6_7 x0 x1 x2 x3 x4 x5 x6)) -∗ K ⟨⟩))
      ⊢ wp frame (wpE (defs₀ (F := F)) Variants.none c none) Set.univ (bodyAt6 t) K := by
  subst hI
  unfold bodyAt6
  simp only [cc6__classifier_kernel_eq_skeleton]; unfold cc6__classifier_kernel_skel owns
  simp only [k6_part1_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, %d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (View.cover_of_tiled _ S512x10.size (by rfl))

def dat6 (c : Dev nD) : Dat τ (Elt F) Unit ℕ (UR sig nD τ) ℕ cfg6 c where
  A w := V c (Pipeline.arrRef spec6 w)
  after w t := match w with
    | ⟨0, _⟩ | ⟨1, _⟩ | ⟨2, _⟩ | ⟨3, _⟩ | ⟨4, _⟩ | ⟨5, _⟩ | ⟨6, _⟩ => iblk6 V c _ t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := rfl

theorem body_obligation6 (c : Dev nD) : BodyObligation (dat6 (F := F) V c) (defs₀ (F := F)) Variants.none () Set.univ := fun t => by
  have hf : ∀ (w : Fin cfg6.W) (t : Fin cfg6.N), w ≠ 7 → (cfg6.win w).fetch t = true := by decide +kernel
  rw [bigSep_W6, bigSep_W6, show (dat6 V c).Φ t.succ = (dat6 V c).Φ t.castSucc from rfl,
    show (dat6 V c).owesAt () t.succ = (dat6 V c).owesAt () t.castSucc from rfl, after6_7]
  simp (disch := (apply hf; decide)) only [Dat.before_fetched]
  show _ ⊢ wp _ _ _ (bodyAt6 t) _
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel6 c t rfl)
  iframe
  isplitl [H7]; · iexists _; iexact H7
  iintro H; iexact H

end Cert.Kernel.Hand

end
-- ==== Proof.K.Run.lean ====
import proofs.«403831_j9380208574710_1_alg».proof.Proof.Gen.Kernel.Regions
import proofs.«403831_j9380208574710_1_alg».proof.Proof.K.Mlp0
import proofs.«403831_j9380208574710_1_alg».proof.Proof.K.Mlp1
import proofs.«403831_j9380208574710_1_alg».proof.Proof.K.Mlp2
import proofs.«403831_j9380208574710_1_alg».proof.Proof.K.Mlp3
import proofs.«403831_j9380208574710_1_alg».proof.Proof.K.Mlp4
import proofs.«403831_j9380208574710_1_alg».proof.Proof.K.Pool
import proofs.«403831_j9380208574710_1_alg».proof.Proof.K.Cls
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev E0 : (c : Dev nD) → (b : Ref sig .tc) → Buf (Elt F) ((c : Thread nD τ).loc b) := fun c b => Gen.V1 m c b
abbrev E1 : (c : Dev nD) → (b : Ref sig .tc) → Buf (Elt F) ((c : Thread nD τ).loc b) := fun c b => Gen.V3 m outs c b
abbrev E2 : (c : Dev nD) → (b : Ref sig .tc) → Buf (Elt F) ((c : Thread nD τ).loc b) := fun c b => Gen.V5 m outs c b
abbrev E3 : (c : Dev nD) → (b : Ref sig .tc) → Buf (Elt F) ((c : Thread nD τ).loc b) := fun c b => Gen.V7 m outs c b
abbrev E4 : (c : Dev nD) → (b : Ref sig .tc) → Buf (Elt F) ((c : Thread nD τ).loc b) := fun c b => Gen.V9 m outs c b
abbrev E5 : (c : Dev nD) → (b : Ref sig .tc) → Buf (Elt F) ((c : Thread nD τ).loc b) := fun c b => Gen.V11 m outs c b
abbrev E6 : (c : Dev nD) → (b : Ref sig .tc) → Buf (Elt F) ((c : Thread nD τ).loc b) := fun c b => Gen.V13 m outs c b

def pdats : (p : Fin 7) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
  | ⟨6, _⟩ => fun c => dat6 (E6 m outs) c

structure OutsOk : Prop where
  h0 : ∀ c, outs 2 main_v16 c = (dat0 (E0 m) c).arrAt 6 cfg0.N
  h1 : ∀ c, outs 4 main_v37 c = (dat1 (E1 m outs) c).arrAt 6 cfg1.N
  h2 : ∀ c, outs 6 main_v58 c = (dat2 (E2 m outs) c).arrAt 6 cfg2.N
  h3 : ∀ c, outs 8 main_v79 c = (dat3 (E3 m outs) c).arrAt 6 cfg3.N
  h4 : ∀ c, outs 10 main_v100 c = (dat4 (E4 m outs) c).arrAt 6 cfg4.N
  h5 : ∀ c, outs 12 main_v102 c = (dat5 (E5 m outs) c).arrAt 2 cfg5.N
  h6 : ∀ c, outs 14 main_v107 c = (dat6 (E6 m outs) c).arrAt 7 cfg6.N

/-- An input array is never written and the arrays are distinct, so only the output window's array moves. -/
theorem exit_arrays {p : Fin 7} {c : Dev nD} (dat : Dat τ (Elt F) Unit ℕ (UR sig nD τ) ℕ (cfgs p) c)
    (hinj : Function.Injective (Pipeline.arrRef (cfgs p).spec)) (V : Valuation τ sig (Elt F)) {r : Ref sig .tc}
    {x : Buf (Elt F) ((c : Thread nD τ).loc r)} {o : Fin (cfgs p).W}
    (hwin : ∀ w, w ≠ o → ((cfgs p).win w).isOut = false) (hr : Pipeline.arrRef (cfgs p).spec o = r)
    (hx : HEq x (dat.arrAt o (cfgs p).N)) (hA : ∀ w, dat.A w = V (Pipeline.arrRef (cfgs p).spec w)) (w : Fin (cfgs p).W) :
    dat.arrAt w (cfgs p).N = Function.update V r x (Pipeline.arrRef (cfgs p).spec w) := by
  subst hr
  by_cases hw : w = o
  · subst hw; rw [Function.update_self]; exact (eq_of_heq hx).symm
  · rw [Function.update_of_ne (StableHlo.devRef_ne_of_ne fun h => hw (hinj h))]
    exact (dat.arrAt_in w (hwin w hw) _).trans (hA w)

abbrev Rside (c : Dev nD) : sProp 𝕄 := iprop((∃ r, prngReg c r) ∗ ∃ W, owes (c : Thread nD τ) (0 : CellTallies nD τ sig Unit) W)

set_option backward.isDefEq.respectTransparency.types false in
/-- A region entered from every unscoped buffer at `V` and left at `V` updated at its output array `r`. -/
def regOf (p : Fin 7) (lf : Pipeline.LaunchFacts (nD := nD) (τ := τ) cfgs p) (V : Dev nD → Valuation τ sig (Elt F)) (r : Ref sig .tc)
    (x : (c : Dev nD) → Buf (Elt F) ((c : Thread nD τ).loc r)) {o : Fin (cfgs p).W}
    (hwin : ∀ w, w ≠ o → ((cfgs p).win w).isOut = false) (hr : Pipeline.arrRef (cfgs p).spec o = r)
    (hx : ∀ c, HEq (x c) ((pdats m outs p c).arrAt o (cfgs p).N))
    (hA : ∀ c w, (pdats m outs p c).A w = V c (Pipeline.arrRef (cfgs p).spec w))
    (hbody : ∀ c, BodyObligation (pdats m outs p c) (defs₀ (F := F)) Variants.none () Set.univ)
    (hq : ∀ c w, (pdats m outs p c).q w = fullShare) (howed : ∀ c t, (pdats m outs p c).owed t = 0)
    (hrec : ∀ c, (pdats m outs p c).recorded 0 = Set.univ)
    (hin : ∀ c, Pipeline.ΦA (cfgs p).spec c ⊢ (pdats m outs p c).Φ 0)
    (hout : ∀ c, (pdats m outs p c).Φ (Fin.last _) ⊢ Pipeline.ΦA (cfgs p).spec c) :
    Pipeline.RegionSeg (pcfgs (F := F)) Gen.adm (pdats m outs) () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (V c) ∗ Rside c)
  post c := iprop(StableHlo.held (c : Thread nD τ) (Pipeline.ucRefs τ sig) (Function.update (V c) r (x c)) ∗ Rside c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) Gen.adm (pdats m outs) lf.win lf.arr_whole c
      ((pdats m outs p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m outs) ((pdats m outs p c).share_full (hq c))
      (fun b => V c b) (fun b => Function.update (V c) r (x c) b) ((pdats m outs p c).arrAt · (cfgs p).N)
      (exit_arrays (pdats m outs p c) lf.win.arr_inj (V c) hwin hr (hx c) (hA c))
      fun b hb => Function.update_of_ne (StableHlo.devRef_ne_of_ne fun h => hb (Finset.mem_image.mpr ⟨o, Finset.mem_univ _, hr.trans h.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 (hok : OutsOk m outs) := regOf m outs 0 launch0 (Gen.V1 m) main_v16 (outs 2 main_v16)
  (by decide : ∀ w : Fin 7, w ≠ 6 → (cfg0.win w).isOut = false) rfl (fun c => heq_of_eq (hok.h0 c)) (A_eq0 (E0 m))
  (body_obligation0 (E0 m)) (fun _ _ => rfl) (fun _ _ => rfl) (fun _ => rfl) (fun _ => .rfl) fun _ => .rfl
def reg1 (hok : OutsOk m outs) := regOf m outs 1 launch1 (Gen.V3 m outs) main_v37 (outs 4 main_v37)
  (by decide : ∀ w : Fin 7, w ≠ 6 → (cfg1.win w).isOut = false) rfl (fun c => heq_of_eq (hok.h1 c)) (A_eq1 (E1 m outs))
  (body_obligation1 (E1 m outs)) (fun _ _ => rfl) (fun _ _ => rfl) (fun _ => rfl) (fun _ => .rfl) fun _ => .rfl
def reg2 (hok : OutsOk m outs) := regOf m outs 2 launch2 (Gen.V5 m outs) main_v58 (outs 6 main_v58)
  (by decide : ∀ w : Fin 7, w ≠ 6 → (cfg2.win w).isOut = false) rfl (fun c => heq_of_eq (hok.h2 c)) (A_eq2 (E2 m outs))
  (body_obligation2 (E2 m outs)) (fun _ _ => rfl) (fun _ _ => rfl) (fun _ => rfl) (fun _ => .rfl) fun _ => .rfl
def reg3 (hok : OutsOk m outs) := regOf m outs 3 launch3 (Gen.V7 m outs) main_v79 (outs 8 main_v79)
  (by decide : ∀ w : Fin 7, w ≠ 6 → (cfg3.win w).isOut = false) rfl (fun c => heq_of_eq (hok.h3 c)) (A_eq3 (E3 m outs))
  (body_obligation3 (E3 m outs)) (fun _ _ => rfl) (fun _ _ => rfl) (fun _ => rfl) (fun _ => .rfl) fun _ => .rfl
def reg4 (hok : OutsOk m outs) := regOf m outs 4 launch4 (Gen.V9 m outs) main_v100 (outs 10 main_v100)
  (by decide : ∀ w : Fin 7, w ≠ 6 → (cfg4.win w).isOut = false) rfl (fun c => heq_of_eq (hok.h4 c)) (A_eq4 (E4 m outs))
  (body_obligation4 (E4 m outs)) (fun _ _ => rfl) (fun _ _ => rfl) (fun _ => rfl) (fun _ => .rfl) fun _ => .rfl
def reg5 (hok : OutsOk m outs) := regOf m outs 5 launch5 (Gen.V11 m outs) main_v102 (outs 12 main_v102)
  (by decide : ∀ w : Fin 3, w ≠ 2 → (cfg5.win w).isOut = false) rfl (fun c => heq_of_eq (hok.h5 c)) (A_eq5 (E5 m outs))
  (body_obligation5 (E5 m outs)) (fun _ _ => rfl) (fun _ _ => rfl) (fun _ => rfl) (hin5 (E5 m outs)) (hout5 (E5 m outs))
def reg6 (hok : OutsOk m outs) := regOf m outs 6 launch6 (Gen.V13 m outs) main_v107 (outs 14 main_v107)
  (by decide : ∀ w : Fin 8, w ≠ 7 → (cfg6.win w).isOut = false) rfl (fun c => heq_of_eq (hok.h6 c)) (A_eq6 (E6 m outs))
  (body_obligation6 (E6 m outs)) (fun _ _ => rfl) (fun _ _ => rfl) (fun _ => rfl) (fun _ => .rfl) fun _ => .rfl

set_option backward.isDefEq.respectTransparency.types false in
theorem run_main (ρ : Dev nD → PrngReg) (hok : OutsOk m outs) :
    θ_run defs (onTc (τ := τ) (main (F := F))) ⟨m, fun _ => 0, ρ⟩
      (fun r => ∀ c : Dev nD, ∀ b ∈ Pipeline.ucRefs τ sig, r.2.mem ((c : Thread nD τ).1, b) = Gen.V14 m outs c b) := by
  refine Pipeline.θ_run_regions_kit_dev (pcfgs (F := F)) Gen.adm (pdats m outs) () cellOf_inj emb₁ defs₀ Variants.none (fun _ => ∅) (fun _ _ => 0) m ρ main
    (Gen.segs m outs Variants.none (fun _ => ∅) (fun _ _ => 0) (fun _ c => Rside c) () (pdats m outs) (reg0 m outs hok) (reg1 m outs hok) (reg2 m outs hok) (reg3 m outs hok) (reg4 m outs hok) (reg5 m outs hok) (reg6 m outs hok))
    (fun c Q => by
      rewrite [main_chain c, Seg.run_eq_chain]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rside c))
    (Tₙ := fun c => StableHlo.held (c : Thread nD τ) (Pipeline.ucRefs τ sig) (Gen.V14 m outs c))
    (hch := fun c => ⟨.rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m outs c b)
    (hfin := fun c s' => by
      iintro ⟨Hh, HSI⟩
      unfold StableHlo.held
      imodintro
      iapply (pointsTo_read_all (Pipeline.ucRefs τ sig) (fun b => (((c : Thread nD τ)).1, b)) (Gen.V14 m outs c) s')
      isplitl [Hh] <;> iassumption)
    (hQ := fun s h c => h c)

/-- A final memory that agrees with the last valuation holds at `b` what that valuation holds there. -/
theorem read_end {s : MemSt nD τ sig (Elt F)} {c : Dev nD}
    (h : ∀ b ∈ Pipeline.ucRefs τ sig, s.mem ((c : Thread nD τ).1, b) = Gen.V14 m outs c b) {b : Ref sig .tc}
    {x : Buf (Elt F) ((c : Thread nD τ).loc b)} (hx : Gen.V14 m outs c b = x)
    (hb : ¬ (Proc.devRef .tc b : DevRef τ sig).isScoped := by decide) : s.mem ((c.tc : Thread nD τ).loc b) = x :=
  (h _ (Finset.mem_filter.mpr ⟨StableHlo.devRef_mem_tcRefs b, hb⟩)).trans hx

def KeptAt (s : MemSt nD τ sig (Elt F)) (c : Dev nD) (b : Ref sig .tc) : Prop :=
  s.mem ((c.tc : Thread nD τ).loc b) = m ((c.tc : Thread nD τ).loc b)

/-- Every argument array holds its launch contents. -/
def Kept (s : MemSt nD τ sig (Elt F)) (c : Dev nD) : Prop :=
  KeptAt m s c main_arg0 ∧ KeptAt m s c main_arg1 ∧ KeptAt m s c main_arg2 ∧ KeptAt m s c main_arg3 ∧ KeptAt m s c main_arg4
  ∧ KeptAt m s c main_arg5 ∧ KeptAt m s c main_arg6 ∧ KeptAt m s c main_arg7 ∧ KeptAt m s c main_arg8 ∧ KeptAt m s c main_arg9
  ∧ KeptAt m s c main_arg10 ∧ KeptAt m s c main_arg11 ∧ KeptAt m s c main_arg12 ∧ KeptAt m s c main_arg13
  ∧ KeptAt m s c main_arg14 ∧ KeptAt m s c main_arg15 ∧ KeptAt m s c main_arg16

/-- No host stretch writes an argument and no region may change one. -/
theorem kept_of {s : MemSt nD τ sig (Elt F)} {c : Dev nD}
    (h : ∀ b ∈ Pipeline.ucRefs τ sig, s.mem ((c : Thread nD τ).1, b) = Gen.V14 m outs c b) : Kept m s c :=
  ⟨read_end m outs h (Gen.V14_main_arg0 m outs c), read_end m outs h (Gen.V14_main_arg1 m outs c),
    read_end m outs h (Gen.V14_main_arg2 m outs c), read_end m outs h (Gen.V14_main_arg3 m outs c),
    read_end m outs h (Gen.V14_main_arg4 m outs c), read_end m outs h (Gen.V14_main_arg5 m outs c),
    read_end m outs h (Gen.V14_main_arg6 m outs c), read_end m outs h (Gen.V14_main_arg7 m outs c),
    read_end m outs h (Gen.V14_main_arg8 m outs c), read_end m outs h (Gen.V14_main_arg9 m outs c),
    read_end m outs h (Gen.V14_main_arg10 m outs c), read_end m outs h (Gen.V14_main_arg11 m outs c),
    read_end m outs h (Gen.V14_main_arg12 m outs c), read_end m outs h (Gen.V14_main_arg13 m outs c),
    read_end m outs h (Gen.V14_main_arg14 m outs c), read_end m outs h (Gen.V14_main_arg15 m outs c),
    read_end m outs h (Gen.V14_main_arg16 m outs c)⟩

theorem frame (ρ : Dev nD → PrngReg) (hok : OutsOk m outs) :
    θ_run defs (onTc (τ := τ) (main (F := F))) ⟨m, fun _ => 0, ρ⟩ (fun r => ∀ c : Dev nD, Kept m r.2 c) :=
  (θ_run defs _ _).mono (fun _ h c => kept_of m outs (h c)) (run_main m outs ρ hok)

end Cert.Kernel.Hand

end
-- ==== Proof.K.Outs.lean ====
import proofs.«403831_j9380208574710_1_alg».proof.Proof.K.Run

noncomputable section

namespace Cert.Kernel.Hand

open Idealize.ShloMosaic Idealize.ShloMosaic.TcCoe
open Cert.Kernel Cert.Kernel.Gen

variable {F : FTy → Type} [FloatOps F]

/-- A host stretch, then a region that sets its output array `r` to what `A` makes of the contents it finds. -/
def stepV (ops : List (HloOp τ sig (Elt F))) (r : Ref sig .tc)
    (A : ((c : Dev nD) → (b : Ref sig .tc) → Buf (Elt F) ((c : Thread nD τ).loc b)) → (c : Dev nD) → Buf (Elt F) ((c : Thread nD τ).loc r))
    (W : Dev nD → Valuation τ sig (Elt F)) (c : Dev nD) : Valuation τ sig (Elt F) :=
  Function.update (StableHlo.after ops (W c)) r (A (fun c b => StableHlo.after ops (W c) b) c)

/-- A family that reads `stepV` at `r` makes the valuation after the region `stepV`, and leaves at `r` what `A` says. -/
theorem step_spec {ops : List (HloOp τ sig (Elt F))} {r : Ref sig .tc} {A} {W V : Dev nD → Valuation τ sig (Elt F)}
    {o : Gen.Outs (F := F)} {J : ℕ} (hV : V = W) (ho : ∀ c, o J r c = stepV ops r A W c r) :
    (fun c => Function.update (StableHlo.after ops (V c)) r (o J r c)) = stepV ops r A W
      ∧ ∀ c, o J r c = A (fun c b => StableHlo.after ops (V c) b) c := by
  subst hV
  exact ⟨funext fun c => by rw [ho c]; unfold stepV; rw [Function.update_self], fun c => (ho c).trans (Function.update_self _ _ _)⟩

variable (m : (ℓ : Loc nD τ sig) → Buf (Elt F) ℓ)

def oV2 : Dev nD → Valuation τ sig (Elt F) := stepV hostOps0 main_v16 (fun V c => (dat0 V c).arrAt 6 cfg0.N) (Gen.V0 m)
def oV4 : Dev nD → Valuation τ sig (Elt F) := stepV hostOps1 main_v37 (fun V c => (dat1 V c).arrAt 6 cfg1.N) (oV2 m)
def oV6 : Dev nD → Valuation τ sig (Elt F) := stepV hostOps2 main_v58 (fun V c => (dat2 V c).arrAt 6 cfg2.N) (oV4 m)
def oV8 : Dev nD → Valuation τ sig (Elt F) := stepV hostOps3 main_v79 (fun V c => (dat3 V c).arrAt 6 cfg3.N) (oV6 m)
def oV10 : Dev nD → Valuation τ sig (Elt F) := stepV hostOps4 main_v100 (fun V c => (dat4 V c).arrAt 6 cfg4.N) (oV8 m)
def oV12 : Dev nD → Valuation τ sig (Elt F) := stepV hostOps5 main_v102 (fun V c => (dat5 V c).arrAt 2 cfg5.N) (oV10 m)
def oV14 : Dev nD → Valuation τ sig (Elt F) := stepV hostOps6 main_v107 (fun V c => (dat6 V c).arrAt 7 cfg6.N) (oV12 m)

/-- Built forward from the launch memory, so nothing refers forward. -/
def outsOf : Gen.Outs (F := F) := fun J r c =>
  match J with
  | 2 => oV2 m c r
  | 4 => oV4 m c r
  | 6 => oV6 m c r
  | 8 => oV8 m c r
  | 10 => oV10 m c r
  | 12 => oV12 m c r
  | _ => oV14 m c r

theorem exists_outs : ∃ outs : Gen.Outs (F := F), OutsOk m outs := by
  have k0 := step_spec (o := outsOf m) (V := Gen.V0 m) rfl (show ∀ c, outsOf m 2 main_v16 c = oV2 m c main_v16 from fun _ => rfl)
  have k1 := step_spec k0.1 (show ∀ c, outsOf m 4 main_v37 c = oV4 m c main_v37 from fun _ => rfl)
  have k2 := step_spec k1.1 (show ∀ c, outsOf m 6 main_v58 c = oV6 m c main_v58 from fun _ => rfl)
  have k3 := step_spec k2.1 (show ∀ c, outsOf m 8 main_v79 c = oV8 m c main_v79 from fun _ => rfl)
  have k4 := step_spec k3.1 (show ∀ c, outsOf m 10 main_v100 c = oV10 m c main_v100 from fun _ => rfl)
  have k5 := step_spec k4.1 (show ∀ c, outsOf m 12 main_v102 c = oV12 m c main_v102 from fun _ => rfl)
  have k6 := step_spec k5.1 (show ∀ c, outsOf m 14 main_v107 c = oV14 m c main_v107 from fun _ => rfl)
  exact ⟨outsOf m, k0.2, k1.2, k2.2, k3.2, k4.2, k5.2, k6.2⟩

end Cert.Kernel.Hand

end
-- ==== Proof.KI.Mlp0.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x300 := Rect.unit (s := S2000x300) ![0, 0] S2000x300.size inb_S2000x300_S2000x300_0_0

def out0_6 (xa xb : Vec F S2000x128 .f32) (xc : Vec F S128x300 .f32) (xd : Vec F S1x300 .f32) (xe : Vec F S300x300 .f32) (xf : Vec F S1x300 .f32) : Vec F S2000x300 .f32 :=
  View.canon [⟨r0_0, k0_pay1 (View.ld xa (Rect.unit (s := S2000x128) ![0, 0] S2000x128.size inb_S2000x128_S2000x128_0_0)) (View.ld xb (Rect.unit (s := S2000x128) ![0, 0] S2000x128.size inb_S2000x128_S2000x128_0_0)) (View.ld xc (Rect.unit (s := S128x300) ![0, 0] S128x300.size inb_S128x300_S128x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel0 (c : Dev nD) (t : Fin cfg0.N) {xa xb : Vec F S2000x128 .f32} {xc : Vec F S128x300 .f32} {xd xf : Vec F S1x300 .f32} {xe : Vec F S300x300 .f32} {K : PUnit → sProp 𝕄} {I : sProp 𝕄 → sProp 𝕄}
    (hI : I = fun R => iprop(owns c.tc (st0_0 t) fullShare xa ∗ owns c.tc (st0_1 t) fullShare xb ∗ owns c.tc (st0_2 t) fullShare xc ∗ owns c.tc (st0_3 t) fullShare xd ∗ owns c.tc (st0_4 t) fullShare xe ∗ owns c.tc (st0_5 t) fullShare xf ∗ R)) :
    iprop(I iprop(∃ d, owns c.tc (st0_6 t) fullShare d) ∗ (I (owns c.tc (st0_6 t) fullShare (out0_6 xa xb xc xd xe xf)) -∗ K ⟨⟩))
      ⊢ wp frame (wpE (defs₀ (F := F)) Variants.none c none) Set.univ (bodyAt0 t) K := by
  subst hI
  unfold bodyAt0
  simp only [cc0__gin_mlp_kernel_eq_skeleton]; unfold cc0__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat0 (c : Dev nD) : Dat τ (Elt F) Unit ℕ (UR sig nD τ) ℕ cfg0 c where
  A w := V c (Pipeline.arrRef spec0 w)
  after w t := match w with
    | ⟨0, _⟩ | ⟨1, _⟩ | ⟨2, _⟩ | ⟨3, _⟩ | ⟨4, _⟩ | ⟨5, _⟩ => iblk0 V c _ t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by
  dsimp only [dat0]

-- Each input window holds before the body what it holds after it.
theorem before0 (c : Dev nD) (w : Fin cfg0.W) (hw : w ≠ 6) (t : Fin cfg0.N) (d) : (dat0 V c).before w t d = (dat0 V c).after w t :=
  match w, hw with
  | ⟨0, _⟩, _ | ⟨1, _⟩, _ | ⟨2, _⟩, _ | ⟨3, _⟩, _ | ⟨4, _⟩, _ | ⟨5, _⟩, _ =>
    (dat0 V c).before_in_eq_fetched _ rfl (fun _ => rfl) (fun _ _ _ => rfl) (fun _ => rfl) t d
  | ⟨6, _⟩, h => absurd rfl h

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_6]
  simp (disch := decide) only [before0 V c]
  show _ ⊢ wp _ _ _ (bodyAt0 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel0 c t rfl)
  iframe
  isplitl [Hg]; · iexists _; iexact Hg
  iintro H; iexact H

end Cert.KernelIdeal.Hand

end
-- ==== Proof.KI.Mlp1.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x300 := Rect.unit (s := S2000x300) ![0, 0] S2000x300.size inb_S2000x300_S2000x300_0_0

def out1_6 (xa xb : Vec F S2000x300 .f32) (xc : Vec F S300x300 .f32) (xd : Vec F S1x300 .f32) (xe : Vec F S300x300 .f32) (xf : Vec F S1x300 .f32) : Vec F S2000x300 .f32 :=
  View.canon [⟨r1_0, k1_pay1 (View.ld xa r1_0) (View.ld xb r1_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel1 (c : Dev nD) (t : Fin cfg1.N) {xa xb : Vec F S2000x300 .f32} {xc xe : Vec F S300x300 .f32} {xd xf : Vec F S1x300 .f32} {K : PUnit → sProp 𝕄} {I : sProp 𝕄 → sProp 𝕄}
    (hI : I = fun R => iprop(owns c.tc (st1_0 t) fullShare xa ∗ owns c.tc (st1_1 t) fullShare xb ∗ owns c.tc (st1_2 t) fullShare xc ∗ owns c.tc (st1_3 t) fullShare xd ∗ owns c.tc (st1_4 t) fullShare xe ∗ owns c.tc (st1_5 t) fullShare xf ∗ R)) :
    iprop(I iprop(∃ d, owns c.tc (st1_6 t) fullShare d) ∗ (I (owns c.tc (st1_6 t) fullShare (out1_6 xa xb xc xd xe xf)) -∗ K ⟨⟩))
      ⊢ wp frame (wpE (defs₀ (F := F)) Variants.none c none) Set.univ (bodyAt1 t) K := by
  subst hI
  unfold bodyAt1
  simp only [cc1__gin_mlp_kernel_eq_skeleton]; unfold cc1__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat1 (c : Dev nD) : Dat τ (Elt F) Unit ℕ (UR sig nD τ) ℕ cfg1 c where
  A w := V c (Pipeline.arrRef spec1 w)
  after w t := match w with
    | ⟨0, _⟩ | ⟨1, _⟩ | ⟨2, _⟩ | ⟨3, _⟩ | ⟨4, _⟩ | ⟨5, _⟩ => iblk1 V c _ t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by
  dsimp only [dat1]

-- Each input window holds before the body what it holds after it.
theorem before1 (c : Dev nD) (w : Fin cfg1.W) (hw : w ≠ 6) (t : Fin cfg1.N) (d) : (dat1 V c).before w t d = (dat1 V c).after w t :=
  match w, hw with
  | ⟨0, _⟩, _ | ⟨1, _⟩, _ | ⟨2, _⟩, _ | ⟨3, _⟩, _ | ⟨4, _⟩, _ | ⟨5, _⟩, _ =>
    (dat1 V c).before_in_eq_fetched _ rfl (fun _ => rfl) (fun _ _ _ => rfl) (fun _ => rfl) t d
  | ⟨6, _⟩, h => absurd rfl h

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl, after1_6]
  simp (disch := decide) only [before1 V c]
  show _ ⊢ wp _ _ _ (bodyAt1 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel1 c t rfl)
  iframe
  isplitl [Hg]; · iexists _; iexact Hg
  iintro H; iexact H

end Cert.KernelIdeal.Hand

end
-- ==== Proof.KI.Mlp2.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x300 := Rect.unit (s := S2000x300) ![0, 0] S2000x300.size inb_S2000x300_S2000x300_0_0

def out2_6 (xa xb : Vec F S2000x300 .f32) (xc : Vec F S300x300 .f32) (xd : Vec F S1x300 .f32) (xe : Vec F S300x300 .f32) (xf : Vec F S1x300 .f32) : Vec F S2000x300 .f32 :=
  View.canon [⟨r2_0, k2_pay1 (View.ld xa r2_0) (View.ld xb r2_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel2 (c : Dev nD) (t : Fin cfg2.N) {xa xb : Vec F S2000x300 .f32} {xc xe : Vec F S300x300 .f32} {xd xf : Vec F S1x300 .f32} {K : PUnit → sProp 𝕄} {I : sProp 𝕄 → sProp 𝕄}
    (hI : I = fun R => iprop(owns c.tc (st2_0 t) fullShare xa ∗ owns c.tc (st2_1 t) fullShare xb ∗ owns c.tc (st2_2 t) fullShare xc ∗ owns c.tc (st2_3 t) fullShare xd ∗ owns c.tc (st2_4 t) fullShare xe ∗ owns c.tc (st2_5 t) fullShare xf ∗ R)) :
    iprop(I iprop(∃ d, owns c.tc (st2_6 t) fullShare d) ∗ (I (owns c.tc (st2_6 t) fullShare (out2_6 xa xb xc xd xe xf)) -∗ K ⟨⟩))
      ⊢ wp frame (wpE (defs₀ (F := F)) Variants.none c none) Set.univ (bodyAt2 t) K := by
  subst hI
  unfold bodyAt2
  simp only [cc2__gin_mlp_kernel_eq_skeleton]; unfold cc2__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat2 (c : Dev nD) : Dat τ (Elt F) Unit ℕ (UR sig nD τ) ℕ cfg2 c where
  A w := V c (Pipeline.arrRef spec2 w)
  after w t := match w with
    | ⟨0, _⟩ | ⟨1, _⟩ | ⟨2, _⟩ | ⟨3, _⟩ | ⟨4, _⟩ | ⟨5, _⟩ => iblk2 V c _ t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by
  dsimp only [dat2]

-- Each input window holds before the body what it holds after it.
theorem before2 (c : Dev nD) (w : Fin cfg2.W) (hw : w ≠ 6) (t : Fin cfg2.N) (d) : (dat2 V c).before w t d = (dat2 V c).after w t :=
  match w, hw with
  | ⟨0, _⟩, _ | ⟨1, _⟩, _ | ⟨2, _⟩, _ | ⟨3, _⟩, _ | ⟨4, _⟩, _ | ⟨5, _⟩, _ =>
    (dat2 V c).before_in_eq_fetched _ rfl (fun _ => rfl) (fun _ _ _ => rfl) (fun _ => rfl) t d
  | ⟨6, _⟩, h => absurd rfl h

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl, after2_6]
  simp (disch := decide) only [before2 V c]
  show _ ⊢ wp _ _ _ (bodyAt2 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel2 c t rfl)
  iframe
  isplitl [Hg]; · iexists _; iexact Hg
  iintro H; iexact H

end Cert.KernelIdeal.Hand

end
-- ==== Proof.KI.Mlp3.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x300 := Rect.unit (s := S2000x300) ![0, 0] S2000x300.size inb_S2000x300_S2000x300_0_0

def out3_6 (xa xb : Vec F S2000x300 .f32) (xc : Vec F S300x300 .f32) (xd : Vec F S1x300 .f32) (xe : Vec F S300x300 .f32) (xf : Vec F S1x300 .f32) : Vec F S2000x300 .f32 :=
  View.canon [⟨r3_0, k3_pay1 (View.ld xa r3_0) (View.ld xb r3_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel3 (c : Dev nD) (t : Fin cfg3.N) {xa xb : Vec F S2000x300 .f32} {xc xe : Vec F S300x300 .f32} {xd xf : Vec F S1x300 .f32} {K : PUnit → sProp 𝕄} {I : sProp 𝕄 → sProp 𝕄}
    (hI : I = fun R => iprop(owns c.tc (st3_0 t) fullShare xa ∗ owns c.tc (st3_1 t) fullShare xb ∗ owns c.tc (st3_2 t) fullShare xc ∗ owns c.tc (st3_3 t) fullShare xd ∗ owns c.tc (st3_4 t) fullShare xe ∗ owns c.tc (st3_5 t) fullShare xf ∗ R)) :
    iprop(I iprop(∃ d, owns c.tc (st3_6 t) fullShare d) ∗ (I (owns c.tc (st3_6 t) fullShare (out3_6 xa xb xc xd xe xf)) -∗ K ⟨⟩))
      ⊢ wp frame (wpE (defs₀ (F := F)) Variants.none c none) Set.univ (bodyAt3 t) K := by
  subst hI
  unfold bodyAt3
  simp only [cc3__gin_mlp_kernel_eq_skeleton]; unfold cc3__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat3 (c : Dev nD) : Dat τ (Elt F) Unit ℕ (UR sig nD τ) ℕ cfg3 c where
  A w := V c (Pipeline.arrRef spec3 w)
  after w t := match w with
    | ⟨0, _⟩ | ⟨1, _⟩ | ⟨2, _⟩ | ⟨3, _⟩ | ⟨4, _⟩ | ⟨5, _⟩ => iblk3 V c _ t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by
  dsimp only [dat3]

-- Each input window holds before the body what it holds after it.
theorem before3 (c : Dev nD) (w : Fin cfg3.W) (hw : w ≠ 6) (t : Fin cfg3.N) (d) : (dat3 V c).before w t d = (dat3 V c).after w t :=
  match w, hw with
  | ⟨0, _⟩, _ | ⟨1, _⟩, _ | ⟨2, _⟩, _ | ⟨3, _⟩, _ | ⟨4, _⟩, _ | ⟨5, _⟩, _ =>
    (dat3 V c).before_in_eq_fetched _ rfl (fun _ => rfl) (fun _ _ _ => rfl) (fun _ => rfl) t d
  | ⟨6, _⟩, h => absurd rfl h

theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl, after3_6]
  simp (disch := decide) only [before3 V c]
  show _ ⊢ wp _ _ _ (bodyAt3 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel3 c t rfl)
  iframe
  isplitl [Hg]; · iexists _; iexact Hg
  iintro H; iexact H

end Cert.KernelIdeal.Hand

end
-- ==== Proof.KI.Mlp4.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x300 := Rect.unit (s := S2000x300) ![0, 0] S2000x300.size inb_S2000x300_S2000x300_0_0

def out4_6 (xa xb : Vec F S2000x300 .f32) (xc : Vec F S300x300 .f32) (xd : Vec F S1x300 .f32) (xe : Vec F S300x300 .f32) (xf : Vec F S1x300 .f32) : Vec F S2000x300 .f32 :=
  View.canon [⟨r4_0, k4_pay1 (View.ld xa r4_0) (View.ld xb r4_0) (View.ld xc (Rect.unit (s := S300x300) ![0, 0] S300x300.size inb_S300x300_S300x300_0_0)) (View.ld xd (Rect.unit (s := S1x300) ![0, 0] S1x300.size inb_S1x300_S1x300_0_0)) (View.ld xe (Rect.unit (s := S300x300) ![0, 0] S300x300.size inb_S300x300_S300x300_0_0)) (View.ld xf (Rect.unit (s := S1x300) ![0, 0] S1x300.size inb_S1x300_S1x300_0_0))⟩]

theorem sound_kernel4 (c : Dev nD) (t : Fin cfg4.N) {xa xb : Vec F S2000x300 .f32} {xc xe : Vec F S300x300 .f32} {xd xf : Vec F S1x300 .f32} {K : PUnit → sProp 𝕄} {I : sProp 𝕄 → sProp 𝕄}
    (hI : I = fun R => iprop(owns c.tc (st4_0 t) fullShare xa ∗ owns c.tc (st4_1 t) fullShare xb ∗ owns c.tc (st4_2 t) fullShare xc ∗ owns c.tc (st4_3 t) fullShare xd ∗ owns c.tc (st4_4 t) fullShare xe ∗ owns c.tc (st4_5 t) fullShare xf ∗ R)) :
    iprop(I iprop(∃ d, owns c.tc (st4_6 t) fullShare d) ∗ (I (owns c.tc (st4_6 t) fullShare (out4_6 xa xb xc xd xe xf)) -∗ K ⟨⟩))
      ⊢ wp frame (wpE (defs₀ (F := F)) Variants.none c none) Set.univ (bodyAt4 t) K := by
  subst hI
  unfold bodyAt4
  simp only [cc4__gin_mlp_kernel_eq_skeleton]; unfold cc4__gin_mlp_kernel_skel owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, %dg, %fg, -, Hg⟩, Hk⟩
  subst hfa hfb hfc hfd hfe hff
  sl_exec
  sl_step
  iapply Hk
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  iexists _; isplitr
  swap; · iexact Hg
  ipureintro
  exact View.read_writes_eq_canon _ _ _ (View.cover_of_tiled _ S2000x300.size (by rfl))

def dat4 (c : Dev nD) : Dat τ (Elt F) Unit ℕ (UR sig nD τ) ℕ cfg4 c where
  A w := V c (Pipeline.arrRef spec4 w)
  after w t := match w with
    | ⟨0, _⟩ | ⟨1, _⟩ | ⟨2, _⟩ | ⟨3, _⟩ | ⟨4, _⟩ | ⟨5, _⟩ => iblk4 V c _ t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := rfl

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by
  dsimp only [dat4]

-- Each input window holds before the body what it holds after it.
theorem before4 (c : Dev nD) (w : Fin cfg4.W) (hw : w ≠ 6) (t : Fin cfg4.N) (d) : (dat4 V c).before w t d = (dat4 V c).after w t :=
  match w, hw with
  | ⟨0, _⟩, _ | ⟨1, _⟩, _ | ⟨2, _⟩, _ | ⟨3, _⟩, _ | ⟨4, _⟩, _ | ⟨5, _⟩, _ =>
    (dat4 V c).before_in_eq_fetched _ rfl (fun _ => rfl) (fun _ _ _ => rfl) (fun _ => rfl) t d
  | ⟨6, _⟩, h => absurd rfl h

theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_6]
  simp (disch := decide) only [before4 V c]
  show _ ⊢ wp _ _ _ (bodyAt4 t) _
  iintro ⟨HΦ, Ho, ⟨%_, Ha⟩, ⟨%_, Hb⟩, ⟨%_, Hc⟩, ⟨%_, Hd⟩, ⟨%_, He⟩, ⟨%_, Hf⟩, %_, Hg⟩
  iapply (sound_kernel4 c t rfl)
  iframe
  isplitl [Hg]; · iexists _; iexact Hg
  iintro H; iexact H

end Cert.KernelIdeal.Hand

end
-- ==== Proof.KI.Pool.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

-- The accumulator is reset at the first point only, and copied out at the last point only.
theorem hcond5 : ∀ t : Fin cfg5.N, (cond5_0 (grid5.coords t) ↔ t.val % 25 = 0) ∧ (cond5_1 (grid5.coords t) ↔ t.val % 25 = 24) := by decide +kernel

def sout5_A_0 (x0 : Vec F S2000x300 .f32) (x1 : Vec F S2000x1 .i32) : Vec F S512x300 .f32 :=
  k5_pay2 x1 x0 (k5_pay1 (F := F))
def sout5_B_0 (x0 : Vec F S2000x300 .f32) (x1 : Vec F S2000x1 .i32) (xs : Vec F S512x300 .f32) : Vec F S512x300 .f32 :=
  k5_pay2 x1 x0 xs
def sout5_C_0 (x0 : Vec F S2000x300 .f32) (x1 : Vec F S2000x1 .i32) (xs : Vec F S512x300 .f32) : Vec F S512x300 .f32 :=
  k5_pay2 x1 x0 xs
def out5_C_2 (x0 : Vec F S2000x300 .f32) (x1 : Vec F S2000x1 .i32) (xs : Vec F S512x300 .f32) : Vec F S512x300 .f32 :=
  k5_pay2 x1 x0 xs

section Kernel
variable (c : Dev nD) (E : Set ℕ) (i : grid5.Coords) (arg1 : Memref sig .tc .vmem S2000x300 .f32) (harg1 : arg1.IsWhole)
  (arg2 : Memref sig .tc .vmem S2000x1 .i32) (harg2 : arg2.IsWhole) (arg3 arg4 : Memref sig .tc .vmem S512x300 .f32)
  (harg3 : arg3.IsWhole) (harg4 : arg4.IsWhole) (x0 : Vec F S2000x300 .f32) (x1 : Vec F S2000x1 .i32) (xo xs : Vec F S512x300 .f32)

-- One triple for the three control paths: the accumulator restarts from zero where the first condition holds, and is copied to the output where the second does.
abbrev Triple5 (K : PUnit → sProp 𝕄) : Prop :=
  iprop(owns (c : Thread nD τ) arg1 fullShare x0 ∗ owns (c : Thread nD τ) arg2 fullShare x1 ∗ owns (c : Thread nD τ) arg3 fullShare xo
      ∗ owns (c : Thread nD τ) arg4 fullShare xs
      ∗ (iprop(owns (c : Thread nD τ) arg1 fullShare x0 ∗ owns (c : Thread nD τ) arg2 fullShare x1
          ∗ owns (c : Thread nD τ) arg3 fullShare (if cond5_1 i then sout5_B_0 x0 x1 xs else xo)
          ∗ owns (c : Thread nD τ) arg4 fullShare (if cond5_0 i then sout5_A_0 x0 x1 else sout5_B_0 x0 x1 xs)) -∗ K ⟨⟩))
    ⊢ wp frame (wpE (defs₀ (F := F)) Variants.none c none) E (cc5__pool_kernel i arg1 harg1 arg2 harg2 arg3 harg3 arg4 harg4) K

variable {c E arg1 harg1 arg2 harg2 arg3 arg4 harg3 harg4}

set_option maxHeartbeats 1000000 in
theorem sound_kernel5_A {K : PUnit → sProp 𝕄} (hc0 : cond5_0 i) (hc1 : ¬cond5_1 i) : Triple5 c E i arg1 harg1 arg2 harg2 arg3 arg4 harg3 harg4 x0 x1 xo xs K := by
  unfold Triple5; rw [if_pos hc0, if_neg hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact hf2
                  iexact H2
  iexists _; isplitr; swap; · iexact HS
  ipureintro
  sl_unfold_words
  rw [View.read_writes_eq_canon _ _ _ (fun y => ⟨_, List.mem_cons.mpr (Or.inl rfl), View.mem_set_unit_zero hz5 inb_S512x300_S512x300_0_0 y⟩)]
  rw [View.canon_cons_unit_zero (S := S512x300) hz5, View.readCov_unit_zero (S := S512x300) _ hz5]
  unfold sout5_A_0
  simp only [View.readAt_eq_ld, harg1.read_unread, harg2.read_unread, harg4.read_unread, View.ld_unit_zero (S := S2000x300) hz5,
    View.ld_unit_zero (S := S2000x1) hz5, View.ld_unit_zero (S := S512x300) hz5]

set_option maxHeartbeats 1000000 in
theorem sound_kernel5_B {K : PUnit → sProp 𝕄} (hc0 : ¬cond5_0 i) (hc1 : ¬cond5_1 i) : Triple5 c E i arg1 harg1 arg2 harg2 arg3 arg4 harg3 harg4 x0 x1 xo xs K := by
  unfold Triple5; rw [if_neg hc0, if_neg hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact hf2
                  iexact H2
  iexists _; isplitr; swap; · iexact HS
  ipureintro
  rw [View.read_writes_eq_canon _ _ _ (fun y => ⟨_, List.mem_cons.mpr (Or.inl rfl), View.mem_set_unit_zero hz5 inb_S512x300_S512x300_0_0 y⟩), View.canon_unit_zero hz5]
  unfold sout5_B_0
  simp only [View.readAt_eq_ld, harg1.read_unread, harg2.read_unread, harg4.read_unread, View.ld_unit_zero (S := S2000x300) hz5,
    View.ld_unit_zero (S := S2000x1) hz5, View.ld_unit_zero (S := S512x300) hz5]

set_option maxHeartbeats 1000000 in
theorem sound_kernel5_C {K : PUnit → sProp 𝕄} (hc0 : ¬cond5_0 i) (hc1 : cond5_1 i) : Triple5 c E i arg1 harg1 arg2 harg2 arg3 arg4 harg3 harg4 x0 x1 xo xs K := by
  unfold Triple5; rw [if_neg hc0, if_pos hc1]
  simp only [cc5__pool_kernel_eq_skeleton]; unfold cc5__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; · iexact H2
    ipureintro
    sl_unfold_words
    rw [View.read_writes_eq_canon _ _ _ (fun y => ⟨_, List.mem_cons.mpr (Or.inl rfl), View.mem_set_unit_zero hz5 inb_S512x300_S512x300_0_0 y⟩), View.canon_unit_zero hz5]
    rw [View.readCov_unit_zero (S := S512x300) _ hz5]
    unfold sout5_B_0
    simp only [View.readAt_eq_ld, harg1.read_unread, harg2.read_unread, harg4.read_unread, View.ld_unit_zero (S := S2000x300) hz5,
    View.ld_unit_zero (S := S2000x1) hz5, View.ld_unit_zero (S := S512x300) hz5]
  iexists _; isplitr; swap; · iexact HS
  ipureintro
  sl_unfold_words
  rw [View.read_writes_eq_canon _ _ _ (fun y => ⟨_, List.mem_cons.mpr (Or.inl rfl), View.mem_set_unit_zero hz5 inb_S512x300_S512x300_0_0 y⟩), View.canon_unit_zero hz5]
  unfold sout5_B_0
  simp only [View.readAt_eq_ld, harg1.read_unread, harg2.read_unread, harg4.read_unread, View.ld_unit_zero (S := S2000x300) hz5,
    View.ld_unit_zero (S := S2000x1) hz5, View.ld_unit_zero (S := S512x300) hz5]

theorem sound_kernel5 {K : PUnit → sProp 𝕄} (hne : cond5_0 i → ¬cond5_1 i) : Triple5 c E i arg1 harg1 arg2 harg2 arg3 arg4 harg3 harg4 x0 x1 xo xs K := by
  by_cases hc0 : cond5_0 i <;> by_cases hc1 : cond5_1 i
  exacts [absurd hc1 (hne hc0), sound_kernel5_A i x0 x1 xo xs hc0 hc1, sound_kernel5_C i x0 x1 xo xs hc0 hc1, sound_kernel5_B i x0 x1 xo xs hc0 hc1]

end Kernel

def out5_A_2 : Vec F S512x300 .f32 := View.canon []
def out5_B_2 : Vec F S512x300 .f32 := View.canon []

theorem sout5_A_0_eq (x0 : Vec F S2000x300 .f32) (x1 : Vec F S2000x1 .i32) :
    sout5_A_0 x0 x1 = k5_pay2 x1 x0 (k5_pay1 (F := F)) := rfl
theorem sout5_B_0_eq (x0 : Vec F S2000x300 .f32) (x1 : Vec F S2000x1 .i32) (xs : Vec F S512x300 .f32) :
    sout5_B_0 x0 x1 xs = k5_pay2 x1 x0 xs := rfl
theorem sout5_C_0_eq (x0 : Vec F S2000x300 .f32) (x1 : Vec F S2000x1 .i32) (xs : Vec F S512x300 .f32) :
    sout5_C_0 x0 x1 xs = k5_pay2 x1 x0 xs := rfl
theorem out5_C_2_eq (x0 : Vec F S2000x300 .f32) (x1 : Vec F S2000x1 .i32) (xs : Vec F S512x300 .f32) :
    out5_C_2 x0 x1 xs = k5_pay2 x1 x0 xs := rfl

theorem sched5 : ∀ t : Fin cfg5.N, (∀ w : Fin cfg5.W, w ≠ 2 → (cfg5.win w).fetch t = true ∧ cfg5.idle w (grid5.coords t) = false)
    ∧ (t.val % 25 = 24 → idle5 2 (grid5.coords t) = false)
    ∧ (¬t.val % 25 = 24 → idle5 2 (grid5.coords t) = true ∧ (win5 2).flush t = false) := by decide +kernel

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def outsAt5 (c : Dev nD) : (n : ℕ) → n < cfg5.N → Vec F S512x300 .f32 × Vec F S512x300 .f32
  | 0, hn => (out5_A_2, sout5_A_0 (iblk5 V c 0 ⟨0, hn⟩) (iblk5 V c 1 ⟨0, hn⟩))
  | n + 1, hn =>
    if (n + 1) % 25 = 0 then
      (out5_A_2, sout5_A_0 (iblk5 V c 0 ⟨n + 1, hn⟩) (iblk5 V c 1 ⟨n + 1, hn⟩))
    else
      if (n + 1) % 25 = 24 then
        (out5_C_2 (iblk5 V c 0 ⟨n + 1, hn⟩) (iblk5 V c 1 ⟨n + 1, hn⟩) (outsAt5 c n (Nat.lt_of_succ_lt hn)).2,
         sout5_C_0 (iblk5 V c 0 ⟨n + 1, hn⟩) (iblk5 V c 1 ⟨n + 1, hn⟩) (outsAt5 c n (Nat.lt_of_succ_lt hn)).2)
      else
        (out5_B_2, sout5_B_0 (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 25 = 0) (h24 : ¬t.val % 25 = 24) :
    outsAt5 V c t.val t.isLt = (out5_A_2, sout5_A_0 (iblk5 V c 0 t) (iblk5 V c 1 t)) := by
  obtain ⟨n, hn⟩ := t
  cases n with
  | zero => exact rfl
  | succ n => exact (if_pos h0).trans rfl

theorem outsAt5_B (c : Dev nD) (t : Fin cfg5.N) (h0 : ¬t.val % 25 = 0) (h24 : ¬t.val % 25 = 24) :
    outsAt5 V c t.val t.isLt = (out5_B_2, sout5_B_0 (iblk5 V c 0 t) (iblk5 V c 1 t)
      (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h24).trans rfl)

theorem outsAt5_C (c : Dev nD) (t : Fin cfg5.N) (h0 : ¬t.val % 25 = 0) (h24 : t.val % 25 = 24) :
    outsAt5 V c t.val t.isLt = (out5_C_2 (iblk5 V c 0 t) (iblk5 V c 1 t) (outsAt5 V c (t.val - 1) (Nat.lt_of_le_of_lt (Nat.sub_le _ _) t.isLt)).2,
      sout5_C_0 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h24).trans rfl)

-- The three cases as one equation over the accumulator `xs` the point before left, in the kernel triple's own terms.
theorem outsAt5_eq (c : Dev nD) (t : Fin cfg5.N) (xs : Vec F S512x300 .f32)
    (hxs : t.val ≠ 0 → xs = (outsAt5 V c (t.val - 1) (Nat.lt_of_le_of_lt (Nat.sub_le _ _) t.isLt)).2) :
    outsAt5 V c t.val t.isLt = (if cond5_1 (grid5.coords t) then sout5_B_0 (iblk5 V c 0 t) (iblk5 V c 1 t) xs else out5_A_2,
      if cond5_0 (grid5.coords t) then sout5_A_0 (iblk5 V c 0 t) (iblk5 V c 1 t) else sout5_B_0 (iblk5 V c 0 t) (iblk5 V c 1 t) xs) := by
  obtain ⟨e0, e1⟩ := hcond5 t
  by_cases h0 : t.val % 25 = 0
  · have h24 : ¬t.val % 25 = 24 := by omega
    rw [outsAt5_A V c t h0 h24, if_pos (e0.mpr h0), if_neg (mt e1.mp h24)]
  · obtain rfl := hxs fun h => h0 (by rw [h])
    by_cases h24 : t.val % 25 = 24
    · rw [outsAt5_C V c t h0 h24, if_neg (mt e0.mp h0), if_pos (e1.mpr h24)]; rfl
    · rw [outsAt5_B V c t h0 h24, if_neg (mt e0.mp h0), if_neg (mt e1.mp h24)]; rfl

abbrev scM5_0 : Memref sig .tc .vmem S512x300 .f32 := Memref.whole cc5_scratch0

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

-- The invariant before position `n`: the region's invariant, with the accumulator known to hold what the point before left once there is one.
def PhiS5 (c : Dev nD) (n : ℕ) (h : n ≤ cfg5.N) : sProp 𝕄 :=
  iprop(∃ xs, ⌜∀ hn : n ≠ 0, xs = (outsAt5 V c (n - 1) (by omega)).2⌝ ∗ iprop(iprop(owns (c : Thread nD τ) scM5_0 fullShare xs
      ∗ Pipeline.scopedRestBut (Ix := Unit) (Name := ℕ) (U := UR sig nD τ) (Lvl := ℕ) (Val := Elt F) spec5 c [cc5_scratch0]) ∗ (∃ r, prngReg c r)))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = (outsAt5 V c t.val t.isLt).1 := rfl

set_option maxHeartbeats 1000000 in
-- The invariant hands the body the accumulator and takes it back at this point's contents; the rest passes through unread.
theorem body_obligation5 (c : Dev nD) : BodyObligation (dat5 (F := F) V c) (defs₀ (F := F)) Variants.none () Set.univ := fun t => by
  obtain ⟨e0, e1⟩ := hcond5 t
  obtain ⟨hw, i2, i2'⟩ := sched5 t
  rw [bigSep_W5, bigSep_W5]
  simp (disch := (refine (hw _ ?_).1; decide)) only [Dat.before_fetched, (hw 0 (by decide)).2, (hw 1 (by decide)).2]
  rewrite [show (dat5 V c).owesAt () t.succ = (dat5 V c).owesAt () t.castSucc from rfl,
    show (dat5 V c).Φ t.castSucc = PhiS5 V c t.val (Nat.le_of_lt t.isLt) from rfl,
    show (dat5 V c).Φ t.succ = PhiS5 V c (t.val + 1) t.isLt from rfl]
  unfold PhiS5
  show _ ⊢ wp frame _ Set.univ (bodyAt5 t) _
  iintro ⟨⟨%xs, %hxs, ⟨HS, HR⟩, Hg⟩, Ho, ⟨%d0, H0⟩, ⟨%d1, H1⟩, ⟨%d2, H2⟩⟩
  have ho := outsAt5_eq V c t xs hxs
  have hne : cond5_0 (grid5.coords t) → ¬cond5_1 (grid5.coords t) := fun h0 h1 => by have := e0.mp h0; have := e1.mp h1; omega
  iapply sound_kernel5 (grid5.coords t) (iblk5 V c 0 t) (iblk5 V c 1 t) ((dat5 V c).before 2 t d2) xs hne
  isplitl [H0]; · iexact H0
  isplitl [H1]; · iexact H1
  isplitl [H2]; · iexact H2
  isplitl [HS]; · iexact HS
  iintro ⟨H0, H1, H2, HS⟩
  isplitl [HS HR Hg]
  · iexists _; isplitr; swap
    · isplitl [HS HR]; swap; · iexact Hg
      isplitl [HS]; · iexact HS
      iexact HR
    ipureintro; exact fun _ => (congrArg Prod.snd ho).symm
  isplitl [Ho]; · iexact Ho
  isplitl [H0]; · iexact H0
  isplitl [H1]; · iexact H1
  by_cases h24 : t.val % 25 = 24
  · simp only [i2 h24, if_pos (e1.mpr h24), show (dat5 V c).after 2 t = _ from congrArg Prod.fst ho]; iexact H2
  · simp only [i2' h24, if_neg (mt e1.mp h24)]; iexists _; iexact H2

theorem hin5 (c : Dev nD) : Pipeline.ΦA spec5 c ⊢ (dat5 V c).Φ 0 := by
  rw [PhiA5_eq]; show _ ⊢ PhiS5 V c 0 (Nat.zero_le _); unfold PhiS5
  iintro ⟨⟨⟨%d, HS⟩, HR⟩, Hg⟩
  iexists d; isplitr; · ipureintro; exact fun h => absurd rfl h
  isplitl [HS HR]; swap; · iexact Hg
  isplitl [HS]; · iexact HS
  iexact HR

theorem hout5 (c : Dev nD) : (dat5 V c).Φ (Fin.last cfg5.N) ⊢ Pipeline.ΦA spec5 c := by
  rw [PhiA5_eq]; show PhiS5 V c _ (Nat.le_of_lt_succ (Fin.last cfg5.N).isLt) ⊢ _; unfold PhiS5
  iintro ⟨%xs, %hxs, ⟨HS, HR⟩, Hg⟩
  isplitl [HS HR]; swap; · iexact Hg
  isplitl [HS]; · iexists _; iexact HS
  iexact HR

end Region

end Cert.KernelIdeal.Hand

end
-- ==== Proof.KI.Cls.lean ====
import proofs.«403831_j9380208574710_1_alg».proof.Proof.Gen.KernelIdeal.Launch
import proofs.«403831_j9380208574710_1_alg».proof.Proof.Gen.KernelIdeal.Skeleton
import proofs.«403831_j9380208574710_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_row : Rect S1x300 := Rect.unit (s := S1x300) ![0, 0] S1x300.size inb_S1x300_S1x300_0_0

def out6_7 (xa : Vec F S512x300 .f32) (xb : Vec F S300x300 .f32) (xc xd xe : Vec F S1x300 .f32)
    (xf : Vec F S300x10 .f32) (xg : Vec F S1x10 .f32) : Vec F S512x10 .f32 :=
  View.canon [⟨Rect.unit (s := S512x10) ![0, 0] S512x10.size inb_S512x10_S512x10_0_0, k6_pay1 (k6_pay2 (View.ld xa (Rect.unit (s := S512x300) ![0, 0] S512x300.size inb_S512x300_S512x300_0_0)) (View.ld xb (Rect.unit (s := S300x300) ![0, 0] S300x300.size inb_S300x300_S300x300_0_0)) (View.ld xc r6_row) (View.ld xd r6_row) (View.ld xe r6_row))
    (View.ld xf (Rect.unit (s := S300x10) ![0, 0] S300x10.size inb_S300x10_S300x10_0_0)) (View.ld xg (Rect.unit (s := S1x10) ![0, 0] S1x10.size inb_S1x10_S1x10_0_0))⟩]

-- The body leaves its seven inputs (their ownership `I`, named once) as they are and stores `out6_7` of them once.
theorem sound_kernel6 (c : Dev nD) (t : Fin cfg6.N) {x0 : Vec F S512x300 .f32} {x1 : Vec F S300x300 .f32} {x2 x3 x4 : Vec F S1x300 .f32}
    {x5 : Vec F S300x10 .f32} {x6 : Vec F S1x10 .f32} {K : PUnit → sProp 𝕄} {I : sProp 𝕄 → sProp 𝕄}
    (hI : I = fun R => iprop(owns c.tc (st6_0 t) fullShare x0 ∗ owns c.tc (st6_1 t) fullShare x1 ∗ owns c.tc (st6_2 t) fullShare x2 ∗ owns c.tc (st6_3 t) fullShare x3 ∗ owns c.tc (st6_4 t) fullShare x4 ∗ owns c.tc (st6_5 t) fullShare x5 ∗ owns c.tc (st6_6 t) fullShare x6 ∗ R)) :
    iprop(I iprop(∃ d, owns c.tc (st6_7 t) fullShare d) ∗ (I (owns c.tc (st6_7 t) fullShare (out6_7 x0 x1 x2 x3 x4 x5 x6)) -∗ K ⟨⟩))
      ⊢ wp frame (wpE (defs₀ (F := F)) Variants.none c none) Set.univ (bodyAt6 t) K := by
  subst hI
  unfold bodyAt6
  simp only [cc6__classifier_kernel_eq_skeleton]; unfold cc6__classifier_kernel_skel owns
  simp only [k6_part1_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, %d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (View.cover_of_tiled _ S512x10.size (by rfl))

def dat6 (c : Dev nD) : Dat τ (Elt F) Unit ℕ (UR sig nD τ) ℕ cfg6 c where
  A w := V c (Pipeline.arrRef spec6 w)
  after w t := match w with
    | ⟨0, _⟩ | ⟨1, _⟩ | ⟨2, _⟩ | ⟨3, _⟩ | ⟨4, _⟩ | ⟨5, _⟩ | ⟨6, _⟩ => iblk6 V c _ t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := rfl

theorem body_obligation6 (c : Dev nD) : BodyObligation (dat6 (F := F) V c) (defs₀ (F := F)) Variants.none () Set.univ := fun t => by
  have hf : ∀ (w : Fin cfg6.W) (t : Fin cfg6.N), w ≠ 7 → (cfg6.win w).fetch t = true := by decide +kernel
  rw [bigSep_W6, bigSep_W6, show (dat6 V c).Φ t.succ = (dat6 V c).Φ t.castSucc from rfl,
    show (dat6 V c).owesAt () t.succ = (dat6 V c).owesAt () t.castSucc from rfl, after6_7]
  simp (disch := (apply hf; decide)) only [Dat.before_fetched]
  show _ ⊢ wp _ _ _ (bodyAt6 t) _
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel6 c t rfl)
  iframe
  isplitl [H7]; · iexists _; iexact H7
  iintro H; iexact H

end Cert.KernelIdeal.Hand

end
-- ==== Proof.KI.Run.lean ====
import proofs.«403831_j9380208574710_1_alg».proof.Proof.Gen.KernelIdeal.Regions
import proofs.«403831_j9380208574710_1_alg».proof.Proof.KI.Mlp0
import proofs.«403831_j9380208574710_1_alg».proof.Proof.KI.Mlp1
import proofs.«403831_j9380208574710_1_alg».proof.Proof.KI.Mlp2
import proofs.«403831_j9380208574710_1_alg».proof.Proof.KI.Mlp3
import proofs.«403831_j9380208574710_1_alg».proof.Proof.KI.Mlp4
import proofs.«403831_j9380208574710_1_alg».proof.Proof.KI.Pool
import proofs.«403831_j9380208574710_1_alg».proof.Proof.KI.Cls
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev E0 : (c : Dev nD) → (b : Ref sig .tc) → Buf (Elt F) ((c : Thread nD τ).loc b) := fun c b => Gen.V1 m c b
abbrev E1 : (c : Dev nD) → (b : Ref sig .tc) → Buf (Elt F) ((c : Thread nD τ).loc b) := fun c b => Gen.V3 m outs c b
abbrev E2 : (c : Dev nD) → (b : Ref sig .tc) → Buf (Elt F) ((c : Thread nD τ).loc b) := fun c b => Gen.V5 m outs c b
abbrev E3 : (c : Dev nD) → (b : Ref sig .tc) → Buf (Elt F) ((c : Thread nD τ).loc b) := fun c b => Gen.V7 m outs c b
abbrev E4 : (c : Dev nD) → (b : Ref sig .tc) → Buf (Elt F) ((c : Thread nD τ).loc b) := fun c b => Gen.V9 m outs c b
abbrev E5 : (c : Dev nD) → (b : Ref sig .tc) → Buf (Elt F) ((c : Thread nD τ).loc b) := fun c b => Gen.V11 m outs c b
abbrev E6 : (c : Dev nD) → (b : Ref sig .tc) → Buf (Elt F) ((c : Thread nD τ).loc b) := fun c b => Gen.V13 m outs c b

def pdats : (p : Fin 7) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
  | ⟨6, _⟩ => fun c => dat6 (E6 m outs) c

structure OutsOk : Prop where
  h0 : ∀ c, outs 2 main_v16 c = (dat0 (E0 m) c).arrAt 6 cfg0.N
  h1 : ∀ c, outs 4 main_v37 c = (dat1 (E1 m outs) c).arrAt 6 cfg1.N
  h2 : ∀ c, outs 6 main_v58 c = (dat2 (E2 m outs) c).arrAt 6 cfg2.N
  h3 : ∀ c, outs 8 main_v79 c = (dat3 (E3 m outs) c).arrAt 6 cfg3.N
  h4 : ∀ c, outs 10 main_v100 c = (dat4 (E4 m outs) c).arrAt 6 cfg4.N
  h5 : ∀ c, outs 12 main_v102 c = (dat5 (E5 m outs) c).arrAt 2 cfg5.N
  h6 : ∀ c, outs 14 main_v107 c = (dat6 (E6 m outs) c).arrAt 7 cfg6.N

/-- An input array is never written and the arrays are distinct, so only the output window's array moves. -/
theorem exit_arrays {p : Fin 7} {c : Dev nD} (dat : Dat τ (Elt F) Unit ℕ (UR sig nD τ) ℕ (cfgs p) c)
    (hinj : Function.Injective (Pipeline.arrRef (cfgs p).spec)) (V : Valuation τ sig (Elt F)) {r : Ref sig .tc}
    {x : Buf (Elt F) ((c : Thread nD τ).loc r)} {o : Fin (cfgs p).W}
    (hwin : ∀ w, w ≠ o → ((cfgs p).win w).isOut = false) (hr : Pipeline.arrRef (cfgs p).spec o = r)
    (hx : HEq x (dat.arrAt o (cfgs p).N)) (hA : ∀ w, dat.A w = V (Pipeline.arrRef (cfgs p).spec w)) (w : Fin (cfgs p).W) :
    dat.arrAt w (cfgs p).N = Function.update V r x (Pipeline.arrRef (cfgs p).spec w) := by
  subst hr
  by_cases hw : w = o
  · subst hw; rw [Function.update_self]; exact (eq_of_heq hx).symm
  · rw [Function.update_of_ne (StableHlo.devRef_ne_of_ne fun h => hw (hinj h))]
    exact (dat.arrAt_in w (hwin w hw) _).trans (hA w)

abbrev Rside (c : Dev nD) : sProp 𝕄 := iprop((∃ r, prngReg c r) ∗ ∃ W, owes (c : Thread nD τ) (0 : CellTallies nD τ sig Unit) W)

set_option backward.isDefEq.respectTransparency.types false in
/-- A region entered from every unscoped buffer at `V` and left at `V` updated at its output array `r`. -/
def regOf (p : Fin 7) (lf : Pipeline.LaunchFacts (nD := nD) (τ := τ) cfgs p) (V : Dev nD → Valuation τ sig (Elt F)) (r : Ref sig .tc)
    (x : (c : Dev nD) → Buf (Elt F) ((c : Thread nD τ).loc r)) {o : Fin (cfgs p).W}
    (hwin : ∀ w, w ≠ o → ((cfgs p).win w).isOut = false) (hr : Pipeline.arrRef (cfgs p).spec o = r)
    (hx : ∀ c, HEq (x c) ((pdats m outs p c).arrAt o (cfgs p).N))
    (hA : ∀ c w, (pdats m outs p c).A w = V c (Pipeline.arrRef (cfgs p).spec w))
    (hbody : ∀ c, BodyObligation (pdats m outs p c) (defs₀ (F := F)) Variants.none () Set.univ)
    (hq : ∀ c w, (pdats m outs p c).q w = fullShare) (howed : ∀ c t, (pdats m outs p c).owed t = 0)
    (hrec : ∀ c, (pdats m outs p c).recorded 0 = Set.univ)
    (hin : ∀ c, Pipeline.ΦA (cfgs p).spec c ⊢ (pdats m outs p c).Φ 0)
    (hout : ∀ c, (pdats m outs p c).Φ (Fin.last _) ⊢ Pipeline.ΦA (cfgs p).spec c) :
    Pipeline.RegionSeg (pcfgs (F := F)) Gen.adm (pdats m outs) () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (V c) ∗ Rside c)
  post c := iprop(StableHlo.held (c : Thread nD τ) (Pipeline.ucRefs τ sig) (Function.update (V c) r (x c)) ∗ Rside c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) Gen.adm (pdats m outs) lf.win lf.arr_whole c
      ((pdats m outs p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m outs) ((pdats m outs p c).share_full (hq c))
      (fun b => V c b) (fun b => Function.update (V c) r (x c) b) ((pdats m outs p c).arrAt · (cfgs p).N)
      (exit_arrays (pdats m outs p c) lf.win.arr_inj (V c) hwin hr (hx c) (hA c))
      fun b hb => Function.update_of_ne (StableHlo.devRef_ne_of_ne fun h => hb (Finset.mem_image.mpr ⟨o, Finset.mem_univ _, hr.trans h.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 (hok : OutsOk m outs) := regOf m outs 0 launch0 (Gen.V1 m) main_v16 (outs 2 main_v16)
  (by decide : ∀ w : Fin 7, w ≠ 6 → (cfg0.win w).isOut = false) rfl (fun c => heq_of_eq (hok.h0 c)) (A_eq0 (E0 m))
  (body_obligation0 (E0 m)) (fun _ _ => rfl) (fun _ _ => rfl) (fun _ => rfl) (fun _ => .rfl) fun _ => .rfl
def reg1 (hok : OutsOk m outs) := regOf m outs 1 launch1 (Gen.V3 m outs) main_v37 (outs 4 main_v37)
  (by decide : ∀ w : Fin 7, w ≠ 6 → (cfg1.win w).isOut = false) rfl (fun c => heq_of_eq (hok.h1 c)) (A_eq1 (E1 m outs))
  (body_obligation1 (E1 m outs)) (fun _ _ => rfl) (fun _ _ => rfl) (fun _ => rfl) (fun _ => .rfl) fun _ => .rfl
def reg2 (hok : OutsOk m outs) := regOf m outs 2 launch2 (Gen.V5 m outs) main_v58 (outs 6 main_v58)
  (by decide : ∀ w : Fin 7, w ≠ 6 → (cfg2.win w).isOut = false) rfl (fun c => heq_of_eq (hok.h2 c)) (A_eq2 (E2 m outs))
  (body_obligation2 (E2 m outs)) (fun _ _ => rfl) (fun _ _ => rfl) (fun _ => rfl) (fun _ => .rfl) fun _ => .rfl
def reg3 (hok : OutsOk m outs) := regOf m outs 3 launch3 (Gen.V7 m outs) main_v79 (outs 8 main_v79)
  (by decide : ∀ w : Fin 7, w ≠ 6 → (cfg3.win w).isOut = false) rfl (fun c => heq_of_eq (hok.h3 c)) (A_eq3 (E3 m outs))
  (body_obligation3 (E3 m outs)) (fun _ _ => rfl) (fun _ _ => rfl) (fun _ => rfl) (fun _ => .rfl) fun _ => .rfl
def reg4 (hok : OutsOk m outs) := regOf m outs 4 launch4 (Gen.V9 m outs) main_v100 (outs 10 main_v100)
  (by decide : ∀ w : Fin 7, w ≠ 6 → (cfg4.win w).isOut = false) rfl (fun c => heq_of_eq (hok.h4 c)) (A_eq4 (E4 m outs))
  (body_obligation4 (E4 m outs)) (fun _ _ => rfl) (fun _ _ => rfl) (fun _ => rfl) (fun _ => .rfl) fun _ => .rfl
def reg5 (hok : OutsOk m outs) := regOf m outs 5 launch5 (Gen.V11 m outs) main_v102 (outs 12 main_v102)
  (by decide : ∀ w : Fin 3, w ≠ 2 → (cfg5.win w).isOut = false) rfl (fun c => heq_of_eq (hok.h5 c)) (A_eq5 (E5 m outs))
  (body_obligation5 (E5 m outs)) (fun _ _ => rfl) (fun _ _ => rfl) (fun _ => rfl) (hin5 (E5 m outs)) (hout5 (E5 m outs))
def reg6 (hok : OutsOk m outs) := regOf m outs 6 launch6 (Gen.V13 m outs) main_v107 (outs 14 main_v107)
  (by decide : ∀ w : Fin 8, w ≠ 7 → (cfg6.win w).isOut = false) rfl (fun c => heq_of_eq (hok.h6 c)) (A_eq6 (E6 m outs))
  (body_obligation6 (E6 m outs)) (fun _ _ => rfl) (fun _ _ => rfl) (fun _ => rfl) (fun _ => .rfl) fun _ => .rfl

set_option backward.isDefEq.respectTransparency.types false in
theorem run_main (ρ : Dev nD → PrngReg) (hok : OutsOk m outs) :
    θ_run defs (onTc (τ := τ) (main (F := F))) ⟨m, fun _ => 0, ρ⟩
      (fun r => ∀ c : Dev nD, ∀ b ∈ Pipeline.ucRefs τ sig, r.2.mem ((c : Thread nD τ).1, b) = Gen.V14 m outs c b) := by
  refine Pipeline.θ_run_regions_kit_dev (pcfgs (F := F)) Gen.adm (pdats m outs) () cellOf_inj emb₁ defs₀ Variants.none (fun _ => ∅) (fun _ _ => 0) m ρ main
    (Gen.segs m outs Variants.none (fun _ => ∅) (fun _ _ => 0) (fun _ c => Rside c) () (pdats m outs) (reg0 m outs hok) (reg1 m outs hok) (reg2 m outs hok) (reg3 m outs hok) (reg4 m outs hok) (reg5 m outs hok) (reg6 m outs hok))
    (fun c Q => by
      rewrite [main_chain c, Seg.run_eq_chain]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rside c))
    (Tₙ := fun c => StableHlo.held (c : Thread nD τ) (Pipeline.ucRefs τ sig) (Gen.V14 m outs c))
    (hch := fun c => ⟨.rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m outs c b)
    (hfin := fun c s' => by
      iintro ⟨Hh, HSI⟩
      unfold StableHlo.held
      imodintro
      iapply (pointsTo_read_all (Pipeline.ucRefs τ sig) (fun b => (((c : Thread nD τ)).1, b)) (Gen.V14 m outs c) s')
      isplitl [Hh] <;> iassumption)
    (hQ := fun s h c => h c)

/-- A final memory that agrees with the last valuation holds at `b` what that valuation holds there. -/
theorem read_end {s : MemSt nD τ sig (Elt F)} {c : Dev nD}
    (h : ∀ b ∈ Pipeline.ucRefs τ sig, s.mem ((c : Thread nD τ).1, b) = Gen.V14 m outs c b) {b : Ref sig .tc}
    {x : Buf (Elt F) ((c : Thread nD τ).loc b)} (hx : Gen.V14 m outs c b = x)
    (hb : ¬ (Proc.devRef .tc b : DevRef τ sig).isScoped := by decide) : s.mem ((c.tc : Thread nD τ).loc b) = x :=
  (h _ (Finset.mem_filter.mpr ⟨StableHlo.devRef_mem_tcRefs b, hb⟩)).trans hx

def KeptAt (s : MemSt nD τ sig (Elt F)) (c : Dev nD) (b : Ref sig .tc) : Prop :=
  s.mem ((c.tc : Thread nD τ).loc b) = m ((c.tc : Thread nD τ).loc b)

/-- Every argument array holds its launch contents. -/
def Kept (s : MemSt nD τ sig (Elt F)) (c : Dev nD) : Prop :=
  KeptAt m s c main_arg0 ∧ KeptAt m s c main_arg1 ∧ KeptAt m s c main_arg2 ∧ KeptAt m s c main_arg3 ∧ KeptAt m s c main_arg4
  ∧ KeptAt m s c main_arg5 ∧ KeptAt m s c main_arg6 ∧ KeptAt m s c main_arg7 ∧ KeptAt m s c main_arg8 ∧ KeptAt m s c main_arg9
  ∧ KeptAt m s c main_arg10 ∧ KeptAt m s c main_arg11 ∧ KeptAt m s c main_arg12 ∧ KeptAt m s c main_arg13
  ∧ KeptAt m s c main_arg14 ∧ KeptAt m s c main_arg15 ∧ KeptAt m s c main_arg16

/-- No host stretch writes an argument and no region may change one. -/
theorem kept_of {s : MemSt nD τ sig (Elt F)} {c : Dev nD}
    (h : ∀ b ∈ Pipeline.ucRefs τ sig, s.mem ((c : Thread nD τ).1, b) = Gen.V14 m outs c b) : Kept m s c :=
  ⟨read_end m outs h (Gen.V14_main_arg0 m outs c), read_end m outs h (Gen.V14_main_arg1 m outs c),
    read_end m outs h (Gen.V14_main_arg2 m outs c), read_end m outs h (Gen.V14_main_arg3 m outs c),
    read_end m outs h (Gen.V14_main_arg4 m outs c), read_end m outs h (Gen.V14_main_arg5 m outs c),
    read_end m outs h (Gen.V14_main_arg6 m outs c), read_end m outs h (Gen.V14_main_arg7 m outs c),
    read_end m outs h (Gen.V14_main_arg8 m outs c), read_end m outs h (Gen.V14_main_arg9 m outs c),
    read_end m outs h (Gen.V14_main_arg10 m outs c), read_end m outs h (Gen.V14_main_arg11 m outs c),
    read_end m outs h (Gen.V14_main_arg12 m outs c), read_end m outs h (Gen.V14_main_arg13 m outs c),
    read_end m outs h (Gen.V14_main_arg14 m outs c), read_end m outs h (Gen.V14_main_arg15 m outs c),
    read_end m outs h (Gen.V14_main_arg16 m outs c)⟩

theorem frame (ρ : Dev nD → PrngReg) (hok : OutsOk m outs) :
    θ_run defs (onTc (τ := τ) (main (F := F))) ⟨m, fun _ => 0, ρ⟩ (fun r => ∀ c : Dev nD, Kept m r.2 c) :=
  (θ_run defs _ _).mono (fun _ h c => kept_of m outs (h c)) (run_main m outs ρ hok)

end Cert.KernelIdeal.Hand

end
-- ==== Proof.KI.Outs.lean ====
import proofs.«403831_j9380208574710_1_alg».proof.Proof.KI.Run

noncomputable section

namespace Cert.KernelIdeal.Hand

open Idealize.ShloMosaic Idealize.ShloMosaic.TcCoe
open Cert.KernelIdeal Cert.KernelIdeal.Gen

variable {F : FTy → Type} [FloatOps F]

/-- A host stretch, then a region that sets its output array `r` to what `A` makes of the contents it finds. -/
def stepV (ops : List (HloOp τ sig (Elt F))) (r : Ref sig .tc)
    (A : ((c : Dev nD) → (b : Ref sig .tc) → Buf (Elt F) ((c : Thread nD τ).loc b)) → (c : Dev nD) → Buf (Elt F) ((c : Thread nD τ).loc r))
    (W : Dev nD → Valuation τ sig (Elt F)) (c : Dev nD) : Valuation τ sig (Elt F) :=
  Function.update (StableHlo.after ops (W c)) r (A (fun c b => StableHlo.after ops (W c) b) c)

/-- A family that reads `stepV` at `r` makes the valuation after the region `stepV`, and leaves at `r` what `A` says. -/
theorem step_spec {ops : List (HloOp τ sig (Elt F))} {r : Ref sig .tc} {A} {W V : Dev nD → Valuation τ sig (Elt F)}
    {o : Gen.Outs (F := F)} {J : ℕ} (hV : V = W) (ho : ∀ c, o J r c = stepV ops r A W c r) :
    (fun c => Function.update (StableHlo.after ops (V c)) r (o J r c)) = stepV ops r A W
      ∧ ∀ c, o J r c = A (fun c b => StableHlo.after ops (V c) b) c := by
  subst hV
  exact ⟨funext fun c => by rw [ho c]; unfold stepV; rw [Function.update_self], fun c => (ho c).trans (Function.update_self _ _ _)⟩

variable (m : (ℓ : Loc nD τ sig) → Buf (Elt F) ℓ)

def oV2 : Dev nD → Valuation τ sig (Elt F) := stepV hostOps0 main_v16 (fun V c => (dat0 V c).arrAt 6 cfg0.N) (Gen.V0 m)
def oV4 : Dev nD → Valuation τ sig (Elt F) := stepV hostOps1 main_v37 (fun V c => (dat1 V c).arrAt 6 cfg1.N) (oV2 m)
def oV6 : Dev nD → Valuation τ sig (Elt F) := stepV hostOps2 main_v58 (fun V c => (dat2 V c).arrAt 6 cfg2.N) (oV4 m)
def oV8 : Dev nD → Valuation τ sig (Elt F) := stepV hostOps3 main_v79 (fun V c => (dat3 V c).arrAt 6 cfg3.N) (oV6 m)
def oV10 : Dev nD → Valuation τ sig (Elt F) := stepV hostOps4 main_v100 (fun V c => (dat4 V c).arrAt 6 cfg4.N) (oV8 m)
def oV12 : Dev nD → Valuation τ sig (Elt F) := stepV hostOps5 main_v102 (fun V c => (dat5 V c).arrAt 2 cfg5.N) (oV10 m)
def oV14 : Dev nD → Valuation τ sig (Elt F) := stepV hostOps6 main_v107 (fun V c => (dat6 V c).arrAt 7 cfg6.N) (oV12 m)

/-- Built forward from the launch memory, so nothing refers forward. -/
def outsOf : Gen.Outs (F := F) := fun J r c =>
  match J with
  | 2 => oV2 m c r
  | 4 => oV4 m c r
  | 6 => oV6 m c r
  | 8 => oV8 m c r
  | 10 => oV10 m c r
  | 12 => oV12 m c r
  | _ => oV14 m c r

theorem exists_outs : ∃ outs : Gen.Outs (F := F), OutsOk m outs := by
  have k0 := step_spec (o := outsOf m) (V := Gen.V0 m) rfl (show ∀ c, outsOf m 2 main_v16 c = oV2 m c main_v16 from fun _ => rfl)
  have k1 := step_spec k0.1 (show ∀ c, outsOf m 4 main_v37 c = oV4 m c main_v37 from fun _ => rfl)
  have k2 := step_spec k1.1 (show ∀ c, outsOf m 6 main_v58 c = oV6 m c main_v58 from fun _ => rfl)
  have k3 := step_spec k2.1 (show ∀ c, outsOf m 8 main_v79 c = oV8 m c main_v79 from fun _ => rfl)
  have k4 := step_spec k3.1 (show ∀ c, outsOf m 10 main_v100 c = oV10 m c main_v100 from fun _ => rfl)
  have k5 := step_spec k4.1 (show ∀ c, outsOf m 12 main_v102 c = oV12 m c main_v102 from fun _ => rfl)
  have k6 := step_spec k5.1 (show ∀ c, outsOf m 14 main_v107 c = oV14 m c main_v107 from fun _ => rfl)
  exact ⟨outsOf m, k0.2, k1.2, k2.2, k3.2, k4.2, k5.2, k6.2⟩

end Cert.KernelIdeal.Hand

end
-- ==== Proof.KI.Result.lean ====
import proofs.«403831_j9380208574710_1_alg».proof.Proof.KI.Run

noncomputable section

namespace Cert.KernelIdeal.Hand

open Idealize.ShloMosaic Idealize.ShloMosaic.TcCoe Idealize.SL.Sem
open Cert.KernelIdeal Cert.KernelIdeal.Gen

variable {F : FTy → Type} [FloatOps F]

/-- The last region's output array is read off the last valuation, where it was set last. -/
theorem run_result (m : (ℓ : Loc nD τ sig) → Buf (Elt F) ℓ) (outs : Gen.Outs (F := F)) (ρ : Dev nD → PrngReg) (hok : OutsOk m outs) :
    θ_run defs (onTc (τ := τ) (main (F := F))) ⟨m, fun _ => 0, ρ⟩ (fun r => ∀ c : Dev nD,
      r.2.mem ((c.tc : Thread nD τ).loc main_v107) = outs 14 main_v107 c ∧ Kept m r.2 c) :=
  (θ_run defs _ _).mono (fun _ h c => ⟨read_end m outs (h c) (Function.update_self _ _ _), kept_of m outs (h c)⟩) (run_main m outs ρ hok)

end Cert.KernelIdeal.Hand

end
-- ==== Proof.Val.HostRead.lean ====
import proofs.«403831_j9380208574710_1_alg».proof.Proof.Gen.KernelIdeal.Regions
import Idealize.ShloMosaic.Lib.StableHlo.Run

noncomputable section

namespace Cert.Val

open Cert.KernelIdeal Cert.KernelIdeal.Gen
open Idealize.ShloMosaic Idealize.ShloMosaic.TcCoe Idealize.ShloMosaic.StableHlo Idealize.SL.Sem

variable {F : FTy → Type} [FloatOps F]

def edgeSrc (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

def edgeDst (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

def gatherCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def scatterCol (dst : (⟨S800000, .i32⟩ : BufTy).Contents (Elt F)) : (⟨S800000x1, .i32⟩ : BufTy).Contents (Elt F) :=
  broadcastInDim S800000x1 ![0] bcast_S800000_S800000x1_0 dst

def aggOf128 (x : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32)) (scatterCol dst)
    (Host.gather gather_S50000x128_S800000x1_S800000x128_1_0_n_n_0_1_1128 x (gatherCol src))

def aggOf300 (h : (⟨S50000x300, .f32⟩ : BufTy).Contents (Elt F)) (src dst : (⟨S800000, .i32⟩ : BufTy).Contents (Elt F)) : (⟨S50000x300, .f32⟩ : BufTy).Contents (Elt F) :=
  Host.scatterAdd scatter_S50000x300_S800000x1_S800000x300_1_0_0_1
    (broadcastInDim S50000x300 ![] bcast_S_S50000x300 (constant (F := F) S_ .f32 0x00000000#32)) (scatterCol dst)
    (Host.gather gather_S50000x300_S800000x1_S800000x300_1_0_n_n_0_1_1300 h (gatherCol src))

def agg128 (x : (⟨S50000x128, .f32⟩ : BufTy).Contents (Elt F)) (ei : (⟨S2x800000, .i32⟩ : BufTy).Contents (Elt F)) : (⟨S50000x128, .f32⟩ : BufTy).Contents (Elt F) :=
  aggOf128 x (edgeSrc ei) (edgeDst ei)

def agg300 (h : (⟨S50000x300, .f32⟩ : BufTy).Contents (Elt F)) (ei : (⟨S2x800000, .i32⟩ : BufTy).Contents (Elt F)) : (⟨S50000x300, .f32⟩ : BufTy).Contents (Elt F) :=
  aggOf300 h (edgeSrc ei) (edgeDst ei)

def row300 (b : (⟨S300, .f32⟩ : BufTy).Contents (Elt F)) : (⟨S1x300, .f32⟩ : BufTy).Contents (Elt F) :=
  shapeCast S1x300 b shapeCasts_S300_S1x300

def wgtAt (off : Fin 3 → ℕ) (hs : S4x300x300.Slices off S1x300x300) (w : (⟨S4x300x300, .f32⟩ : BufTy).Contents (Elt F)) : (⟨S300x300, .f32⟩ : BufTy).Contents (Elt F) :=
  shapeCast S300x300 (extractStridedSlice S1x300x300 off w hs) shapeCasts_S1x300x300_S300x300

def biasAt (off : Fin 2 → ℕ) (hs : S4x300.Slices off S1x300) (b : (⟨S4x300, .f32⟩ : BufTy).Contents (Elt F)) : (⟨S1x300, .f32⟩ : BufTy).Contents (Elt F) :=
  row300 (shapeCast S300 (extractStridedSlice S1x300 off b hs) shapeCasts_S1x300_S300)

variable (m : (ℓ : Loc nD τ sig) → Buf (Elt F) ℓ) (outs : Gen.Outs (F := F)) (c : Dev nD)

theorem asLaunched (r : Ref sig .tc)
    (h : r ∉ hostOps0_W ∧ r ∉ ([main_v16] : List (Ref sig .tc)) ∧ r ∉ hostOps1_W ∧ r ∉ ([main_v37] : List (Ref sig .tc)) ∧ r ∉ hostOps2_W ∧ r ∉ ([main_v58] : List (Ref sig .tc)) ∧ r ∉ hostOps3_W ∧ r ∉ ([main_v79] : List (Ref sig .tc)) ∧ r ∉ hostOps4_W ∧ r ∉ ([main_v100] : List (Ref sig .tc)) ∧ r ∉ hostOps5_W ∧ r ∉ ([main_v102] : List (Ref sig .tc)) ∧ r ∉ hostOps6_W) :
    Gen.V2 m outs c r = m ((c : Thread nD τ).loc r) ∧ Gen.V4 m outs c r = m ((c : Thread nD τ).loc r)
    ∧ Gen.V6 m outs c r = m ((c : Thread nD τ).loc r) ∧ Gen.V8 m outs c r = m ((c : Thread nD τ).loc r)
    ∧ Gen.V10 m outs c r = m ((c : Thread nD τ).loc r) ∧ Gen.V12 m outs c r = m ((c : Thread nD τ).loc r)
    ∧ Gen.V13 m outs c r = m ((c : Thread nD τ).loc r) := by
  obtain ⟨h1, h2, h3, h4, h5, h6, h7, h8, h9, h10, h11, h12, h13⟩ := h
  have e2 := (Gen.V2_of m outs c r h2).trans ((Gen.V1_of m c r h1).trans rfl)
  have e4 := (Gen.V4_of m outs c r h4).trans ((Gen.V3_of m outs c r h3).trans e2)
  have e6 := (Gen.V6_of m outs c r h6).trans ((Gen.V5_of m outs c r h5).trans e4)
  have e8 := (Gen.V8_of m outs c r h8).trans ((Gen.V7_of m outs c r h7).trans e6)
  have e10 := (Gen.V10_of m outs c r h10).trans ((Gen.V9_of m outs c r h9).trans e8)
  have e12 := (Gen.V12_of m outs c r h12).trans ((Gen.V11_of m outs c r h11).trans e10)
  exact ⟨e2, e4, e6, e8, e10, e12, (Gen.V13_of m outs c r h13).trans e12⟩

theorem asFirst (r : Ref sig .tc)
    (h : r ∉ ([main_v16] : List (Ref sig .tc)) ∧ r ∉ hostOps1_W ∧ r ∉ ([main_v37] : List (Ref sig .tc)) ∧ r ∉ hostOps2_W ∧ r ∉ ([main_v58] : List (Ref sig .tc)) ∧ r ∉ hostOps3_W ∧ r ∉ ([main_v79] : List (Ref sig .tc))) :
    Gen.V2 m outs c r = Gen.V1 m c r ∧ Gen.V4 m outs c r = Gen.V1 m c r ∧ Gen.V6 m outs c r = Gen.V1 m c r ∧ Gen.V8 m outs c r = Gen.V1 m c r := by
  obtain ⟨h2, h3, h4, h5, h6, h7, h8⟩ := h
  have e2 := Gen.V2_of m outs c r h2
  have e3 := (Gen.V3_of m outs c r h3).trans e2
  have e4 := (Gen.V4_of m outs c r h4).trans e3
  have e5 := (Gen.V5_of m outs c r h5).trans e4
  have e6 := (Gen.V6_of m outs c r h6).trans e5
  have e7 := (Gen.V7_of m outs c r h7).trans e6
  have e8 := (Gen.V8_of m outs c r h8).trans e7
  exact ⟨e2, e4, e6, e8⟩

theorem V1_main_arg0 : Gen.V1 m c main_arg0 = m ((c : Thread nD τ).loc main_arg0) := (Gen.V1_of m c main_arg0 (by decide)).trans rfl
theorem V1_main_arg1 : Gen.V1 m c main_arg1 = m ((c : Thread nD τ).loc main_arg1) := (Gen.V1_of m c main_arg1 (by decide)).trans rfl
theorem V1_main_arg3 : Gen.V1 m c main_arg3 = m ((c : Thread nD τ).loc main_arg3) := (Gen.V1_of m c main_arg3 (by decide)).trans rfl
theorem V2_main_v16 : Gen.V2 m outs c main_v16 = outs 2 main_v16 c := Function.update_self ..
theorem V3_main_v16 : Gen.V3 m outs c main_v16 = outs 2 main_v16 c := (Gen.V3_of m outs c main_v16 (by decide)).trans (V2_main_v16 m outs c)
theorem V4_main_v37 : Gen.V4 m outs c main_v37 = outs 4 main_v37 c := Function.update_self ..
theorem V5_main_v37 : Gen.V5 m outs c main_v37 = outs 4 main_v37 c := (Gen.V5_of m outs c main_v37 (by decide)).trans (V4_main_v37 m outs c)
theorem V6_main_v58 : Gen.V6 m outs c main_v58 = outs 6 main_v58 c := Function.update_self ..
theorem V7_main_v58 : Gen.V7 m outs c main_v58 = outs 6 main_v58 c := (Gen.V7_of m outs c main_v58 (by decide)).trans (V6_main_v58 m outs c)
theorem V8_main_v79 : Gen.V8 m outs c main_v79 = outs 8 main_v79 c := Function.update_self ..
theorem V9_main_v79 : Gen.V9 m outs c main_v79 = outs 8 main_v79 c := (Gen.V9_of m outs c main_v79 (by decide)).trans (V8_main_v79 m outs c)
theorem V10_main_v100 : Gen.V10 m outs c main_v100 = outs 10 main_v100 c := Function.update_self ..
theorem V11_main_v100 : Gen.V11 m outs c main_v100 = outs 10 main_v100 c := (Gen.V11_of m outs c main_v100 (by decide)).trans (V10_main_v100 m outs c)
theorem V12_main_v102 : Gen.V12 m outs c main_v102 = outs 12 main_v102 c := Function.update_self ..
theorem V13_main_v102 : Gen.V13 m outs c main_v102 = outs 12 main_v102 c := (Gen.V13_of m outs c main_v102 (by decide)).trans (V12_main_v102 m outs c)
theorem V13_main_arg9 : Gen.V13 m outs c main_arg9 = m ((c : Thread nD τ).loc main_arg9) := (asLaunched m outs c main_arg9 (by decide)).2.2.2.2.2.2
theorem V13_main_arg13 : Gen.V13 m outs c main_arg13 = m ((c : Thread nD τ).loc main_arg13) := (asLaunched m outs c main_arg13 (by decide)).2.2.2.2.2.2

theorem V1_main_v1 : (Gen.V1 m c main_v1 : (⟨S800000, .i32⟩ : BufTy).Contents (Elt F)) = edgeSrc (m ((c : Thread nD τ).loc main_arg15)) := by
  dsimp only [Gen.V1, Gen.hostOps0]; after_results_simp; rfl
theorem V1_main_v3 : (Gen.V1 m c main_v3 : (⟨S800000, .i32⟩ : BufTy).Contents (Elt F)) = edgeDst (m ((c : Thread nD τ).loc main_arg15)) := by
  dsimp only [Gen.V1, Gen.hostOps0]; after_results_simp; rfl
theorem V1_main_v13 : (Gen.V1 m c main_v13 : (⟨S50000x128, .f32⟩ : BufTy).Contents (Elt F)) = agg128 (m ((c : Thread nD τ).loc main_arg0)) (m ((c : Thread nD τ).loc main_arg15)) := by
  dsimp only [Gen.V1, Gen.hostOps0]; after_results_simp; rfl
theorem V1_main_v14 : (Gen.V1 m c main_v14 : (⟨S1x300, .f32⟩ : BufTy).Contents (Elt F)) = row300 (m ((c : Thread nD τ).loc main_arg2)) := by
  dsimp only [Gen.V1, Gen.hostOps0]; after_results_simp; rfl
theorem V1_main_v15 : (Gen.V1 m c main_v15 : (⟨S1x300, .f32⟩ : BufTy).Contents (Elt F)) = row300 (m ((c : Thread nD τ).loc main_arg4)) := by
  dsimp only [Gen.V1, Gen.hostOps0]; after_results_simp; rfl
theorem V3_main_v34 : (Gen.V3 m outs c main_v34 : (⟨S50000x300, .f32⟩ : BufTy).Contents (Elt F)) = agg300 (outs 2 main_v16 c) (m ((c : Thread nD τ).loc main_arg15)) := by
  dsimp only [Gen.V3, Gen.hostOps1]; after_results_simp
  rw [V2_main_v16 m outs c, (asFirst m outs c main_v1 (by decide)).1, (asFirst m outs c main_v3 (by decide)).1, V1_main_v1 m c, V1_main_v3 m c]; rfl
theorem V3_main_v18 : (Gen.V3 m outs c main_v18 : (⟨S300x300, .f32⟩ : BufTy).Contents (Elt F)) = wgtAt ![0, 0, 0] slices_S4x300x300_S1x300x300_0_0_0 (m ((c : Thread nD τ).loc main_arg5)) := by
  dsimp only [Gen.V3, Gen.hostOps1]; after_results_simp; rw [(asLaunched m outs c main_arg5 (by decide)).1]; rfl
theorem V3_main_v35 : (Gen.V3 m outs c main_v35 : (⟨S1x300, .f32⟩ : BufTy).Contents (Elt F)) = biasAt ![0, 0] slices_S4x300_S1x300_0_0 (m ((c : Thread nD τ).loc main_arg6)) := by
  dsimp only [Gen.V3, Gen.hostOps1]; after_results_simp; rw [(asLaunched m outs c main_arg6 (by decide)).1]; rfl
theorem V3_main_v22 : (Gen.V3 m outs c main_v22 : (⟨S300x300, .f32⟩ : BufTy).Contents (Elt F)) = wgtAt ![0, 0, 0] slices_S4x300x300_S1x300x300_0_0_0 (m ((c : Thread nD τ).loc main_arg7)) := by
  dsimp only [Gen.V3, Gen.hostOps1]; after_results_simp; rw [(asLaunched m outs c main_arg7 (by decide)).1]; rfl
theorem V3_main_v36 : (Gen.V3 m outs c main_v36 : (⟨S1x300, .f32⟩ : BufTy).Contents (Elt F)) = biasAt ![0, 0] slices_S4x300_S1x300_0_0 (m ((c : Thread nD τ).loc main_arg8)) := by
  dsimp only [Gen.V3, Gen.hostOps1]; after_results_simp; rw [(asLaunched m outs c main_arg8 (by decide)).1]; rfl
theorem V5_main_v55 : (Gen.V5 m outs c main_v55 : (⟨S50000x300, .f32⟩ : BufTy).Contents (Elt F)) = agg300 (outs 4 main_v37 c) (m ((c : Thread nD τ).loc main_arg15)) := by
  dsimp only [Gen.V5, Gen.hostOps2]; after_results_simp
  rw [V4_main_v37 m outs c, (asFirst m outs c main_v1 (by decide)).2.1, (asFirst m outs c main_v3 (by decide)).2.1, V1_main_v1 m c, V1_main_v3 m c]; rfl
theorem V5_main_v39 : (Gen.V5 m outs c main_v39 : (⟨S300x300, .f32⟩ : BufTy).Contents (Elt F)) = wgtAt ![1, 0, 0] slices_S4x300x300_S1x300x300_1_0_0 (m ((c : Thread nD τ).loc main_arg5)) := by
  dsimp only [Gen.V5, Gen.hostOps2]; after_results_simp; rw [(asLaunched m outs c main_arg5 (by decide)).2.1]; rfl
theorem V5_main_v56 : (Gen.V5 m outs c main_v56 : (⟨S1x300, .f32⟩ : BufTy).Contents (Elt F)) = biasAt ![1, 0] slices_S4x300_S1x300_1_0 (m ((c : Thread nD τ).loc main_arg6)) := by
  dsimp only [Gen.V5, Gen.hostOps2]; after_results_simp; rw [(asLaunched m outs c main_arg6 (by decide)).2.1]; rfl
theorem V5_main_v43 : (Gen.V5 m outs c main_v43 : (⟨S300x300, .f32⟩ : BufTy).Contents (Elt F)) = wgtAt ![1, 0, 0] slices_S4x300x300_S1x300x300_1_0_0 (m ((c : Thread nD τ).loc main_arg7)) := by
  dsimp only [Gen.V5, Gen.hostOps2]; after_results_simp; rw [(asLaunched m outs c main_arg7 (by decide)).2.1]; rfl
theorem V5_main_v57 : (Gen.V5 m outs c main_v57 : (⟨S1x300, .f32⟩ : BufTy).Contents (Elt F)) = biasAt ![1, 0] slices_S4x300_S1x300_1_0 (m ((c : Thread nD τ).loc main_arg8)) := by
  dsimp only [Gen.V5, Gen.hostOps2]; after_results_simp; rw [(asLaunched m outs c main_arg8 (by decide)).2.1]; rfl
theorem V7_main_v76 : (Gen.V7 m outs c main_v76 : (⟨S50000x300, .f32⟩ : BufTy).Contents (Elt F)) = agg300 (outs 6 main_v58 c) (m ((c : Thread nD τ).loc main_arg15)) := by
  dsimp only [Gen.V7, Gen.hostOps3]; after_results_simp
  rw [V6_main_v58 m outs c, (asFirst m outs c main_v1 (by decide)).2.2.1, (asFirst m outs c main_v3 (by decide)).2.2.1, V1_main_v1 m c, V1_main_v3 m c]; rfl
theorem V7_main_v60 : (Gen.V7 m outs c main_v60 : (⟨S300x300, .f32⟩ : BufTy).Contents (Elt F)) = wgtAt ![2, 0, 0] slices_S4x300x300_S1x300x300_2_0_0 (m ((c : Thread nD τ).loc main_arg5)) := by
  dsimp only [Gen.V7, Gen.hostOps3]; after_results_simp; rw [(asLaunched m outs c main_arg5 (by decide)).2.2.1]; rfl
theorem V7_main_v77 : (Gen.V7 m outs c main_v77 : (⟨S1x300, .f32⟩ : BufTy).Contents (Elt F)) = biasAt ![2, 0] slices_S4x300_S1x300_2_0 (m ((c : Thread nD τ).loc main_arg6)) := by
  dsimp only [Gen.V7, Gen.hostOps3]; after_results_simp; rw [(asLaunched m outs c main_arg6 (by decide)).2.2.1]; rfl
theorem V7_main_v64 : (Gen.V7 m outs c main_v64 : (⟨S300x300, .f32⟩ : BufTy).Contents (Elt F)) = wgtAt ![2, 0, 0] slices_S4x300x300_S1x300x300_2_0_0 (m ((c : Thread nD τ).loc main_arg7)) := by
  dsimp only [Gen.V7, Gen.hostOps3]; after_results_simp; rw [(asLaunched m outs c main_arg7 (by decide)).2.2.1]; rfl
theorem V7_main_v78 : (Gen.V7 m outs c main_v78 : (⟨S1x300, .f32⟩ : BufTy).Contents (Elt F)) = biasAt ![2, 0] slices_S4x300_S1x300_2_0 (m ((c : Thread nD τ).loc main_arg8)) := by
  dsimp only [Gen.V7, Gen.hostOps3]; after_results_simp; rw [(asLaunched m outs c main_arg8 (by decide)).2.2.1]; rfl
theorem V9_main_v97 : (Gen.V9 m outs c main_v97 : (⟨S50000x300, .f32⟩ : BufTy).Contents (Elt F)) = agg300 (outs 8 main_v79 c) (m ((c : Thread nD τ).loc main_arg15)) := by
  dsimp only [Gen.V9, Gen.hostOps4]; after_results_simp
  rw [V8_main_v79 m outs c, (asFirst m outs c main_v1 (by decide)).2.2.2, (asFirst m outs c main_v3 (by decide)).2.2.2, V1_main_v1 m c, V1_main_v3 m c]; rfl
theorem V9_main_v81 : (Gen.V9 m outs c main_v81 : (⟨S300x300, .f32⟩ : BufTy).Contents (Elt F)) = wgtAt ![3, 0, 0] slices_S4x300x300_S1x300x300_3_0_0 (m ((c : Thread nD τ).loc main_arg5)) := by
  dsimp only [Gen.V9, Gen.hostOps4]; after_results_simp; rw [(asLaunched m outs c main_arg5 (by decide)).2.2.2.1]; rfl
theorem V9_main_v98 : (Gen.V9 m outs c main_v98 : (⟨S1x300, .f32⟩ : BufTy).Contents (Elt F)) = biasAt ![3, 0] slices_S4x300_S1x300_3_0 (m ((c : Thread nD τ).loc main_arg6)) := by
  dsimp only [Gen.V9, Gen.hostOps4]; after_results_simp; rw [(asLaunched m outs c main_arg6 (by decide)).2.2.2.1]; rfl
theorem V9_main_v85 : (Gen.V9 m outs c main_v85 : (⟨S300x300, .f32⟩ : BufTy).Contents (Elt F)) = wgtAt ![3, 0, 0] slices_S4x300x300_S1x300x300_3_0_0 (m ((c : Thread nD τ).loc main_arg7)) := by
  dsimp only [Gen.V9, Gen.hostOps4]; after_results_simp; rw [(asLaunched m outs c main_arg7 (by decide)).2.2.2.1]; rfl
theorem V9_main_v99 : (Gen.V9 m outs c main_v99 : (⟨S1x300, .f32⟩ : BufTy).Contents (Elt F)) = biasAt ![3, 0] slices_S4x300_S1x300_3_0 (m ((c : Thread nD τ).loc main_arg8)) := by
  dsimp only [Gen.V9, Gen.hostOps4]; after_results_simp; rw [(asLaunched m outs c main_arg8 (by decide)).2.2.2.1]; rfl

theorem V11_main_v101 : (Gen.V11 m outs c main_v101 : (⟨S50000x1, .i32⟩ : BufTy).Contents (Elt F)) = shapeCast S50000x1 (m ((c : Thread nD τ).loc main_arg16)) shapeCasts_S50000_S50000x1 := by
  dsimp only [Gen.V11, Gen.hostOps5]; after_results_simp; rw [(asLaunched m outs c main_arg16 (by decide)).2.2.2.2.1]; rfl
theorem V13_main_v103 : (Gen.V13 m outs c main_v103 : (⟨S1x300, .f32⟩ : BufTy).Contents (Elt F)) = row300 (m ((c : Thread nD τ).loc main_arg10)) := by
  dsimp only [Gen.V13, Gen.hostOps6]; after_results_simp; rw [(asLaunched m outs c main_arg10 (by decide)).2.2.2.2.2.1]; rfl
theorem V13_main_v104 : (Gen.V13 m outs c main_v104 : (⟨S1x300, .f32⟩ : BufTy).Contents (Elt F)) = row300 (m ((c : Thread nD τ).loc main_arg11)) := by
  dsimp only [Gen.V13, Gen.hostOps6]; after_results_simp; rw [(asLaunched m outs c main_arg11 (by decide)).2.2.2.2.2.1]; rfl
theorem V13_main_v105 : (Gen.V13 m outs c main_v105 : (⟨S1x300, .f32⟩ : BufTy).Contents (Elt F)) = row300 (m ((c : Thread nD τ).loc main_arg12)) := by
  dsimp only [Gen.V13, Gen.hostOps6]; after_results_simp; rw [(asLaunched m outs c main_arg12 (by decide)).2.2.2.2.2.1]; rfl
theorem V13_main_v106 : (Gen.V13 m outs c main_v106 : (⟨S1x10, .f32⟩ : BufTy).Contents (Elt F)) = shapeCast S1x10 (m ((c : Thread nD τ).loc main_arg14)) shapeCasts_S10_S1x10 := by
  dsimp only [Gen.V13, Gen.hostOps6]; after_results_simp; rw [(asLaunched m outs c main_arg14 (by decide)).2.2.2.2.2.1]; rfl

end Cert.Val

end
-- ==== Proof.Spec.lean ====
import Idealize.ShloMosaic.PureOps.Ideal
import Idealize.ShloMosaic.Lib.ValueIdx

noncomputable section

namespace Cert.Spec

open Idealize.ShloMosaic Idealize.ShloMosaic.ValueIdx

/-- A layer's hidden row at node r: relu((h_r + agg_r) W1 + b1), column k. -/
def hid128 (h agg : (⟨2, ![50000, 128]⟩ : Shape).Idx → EReal) (w1 : (⟨2, ![128, 300]⟩ : Shape).Idx → EReal)
    (b1 : (⟨2, ![1, 300]⟩ : Shape).Idx → EReal) (r : Fin 50000) (k : Fin 300) : EReal :=
  max ((∑ a : Fin 128, (h (ix2 r a) + agg (ix2 r a)) * w1 (ix2 a k)) + b1 (ix2 (0 : Fin 1) k)) 0

def hid300 (h agg : (⟨2, ![50000, 300]⟩ : Shape).Idx → EReal) (w1 : (⟨2, ![300, 300]⟩ : Shape).Idx → EReal)
    (b1 : (⟨2, ![1, 300]⟩ : Shape).Idx → EReal) (r : Fin 50000) (k : Fin 300) : EReal :=
  max ((∑ a : Fin 300, (h (ix2 r a) + agg (ix2 r a)) * w1 (ix2 a k)) + b1 (ix2 (0 : Fin 1) k)) 0

/-- A layer's dense part: relu(hidden W2 + b2); entry (r, j) depends on row r only. -/
def mlp128 (h agg : (⟨2, ![50000, 128]⟩ : Shape).Idx → EReal) (w1 : (⟨2, ![128, 300]⟩ : Shape).Idx → EReal)
    (b1 : (⟨2, ![1, 300]⟩ : Shape).Idx → EReal) (w2 : (⟨2, ![300, 300]⟩ : Shape).Idx → EReal)
    (b2 : (⟨2, ![1, 300]⟩ : Shape).Idx → EReal) : (⟨2, ![50000, 300]⟩ : Shape).Idx → EReal :=
  fun i => max ((∑ k : Fin 300, hid128 h agg w1 b1 (i 0) k * w2 (ix2 k (i 1))) + b2 (ix2 (0 : Fin 1) (i 1))) 0

def mlp300 (h agg : (⟨2, ![50000, 300]⟩ : Shape).Idx → EReal) (w1 : (⟨2, ![300, 300]⟩ : Shape).Idx → EReal)
    (b1 : (⟨2, ![1, 300]⟩ : Shape).Idx → EReal) (w2 : (⟨2, ![300, 300]⟩ : Shape).Idx → EReal)
    (b2 : (⟨2, ![1, 300]⟩ : Shape).Idx → EReal) : (⟨2, ![50000, 300]⟩ : Shape).Idx → EReal :=
  fun i => max ((∑ k : Fin 300, hid300 h agg w1 b1 (i 0) k * w2 (ix2 k (i 1))) + b2 (ix2 (0 : Fin 1) (i 1))) 0

def pool (ids : (⟨2, ![50000, 1]⟩ : Shape).Idx → BitVec 32) (h : (⟨2, ![50000, 300]⟩ : Shape).Idx → EReal) :
    (⟨2, ![512, 300]⟩ : Shape).Idx → EReal :=
  fun i => ∑ e ∈ Finset.univ.filter (fun e : Fin 50000 => (ids (ix2 e (0 : Fin 1))).toInt = (((i 0 : Fin 512)).val : ℤ)),
    h (ix2 e (i 1))

abbrev nGraphs : EReal := Ideal.ofBits .f32 0x44000000#32
abbrev varEps : EReal := Ideal.ofBits .f32 0x3727C5AC#32

def clsZ (g : (⟨2, ![512, 300]⟩ : Shape).Idx → EReal) (wc1 : (⟨2, ![300, 300]⟩ : Shape).Idx → EReal)
    (bc1 : (⟨2, ![1, 300]⟩ : Shape).Idx → EReal) (r : Fin 512) (k : Fin 300) : EReal :=
  (∑ a : Fin 300, g (ix2 r a) * wc1 (ix2 a k)) + bc1 (ix2 (0 : Fin 1) k)

def clsMu (g : (⟨2, ![512, 300]⟩ : Shape).Idx → EReal) (wc1 : (⟨2, ![300, 300]⟩ : Shape).Idx → EReal)
    (bc1 : (⟨2, ![1, 300]⟩ : Shape).Idx → EReal) (k : Fin 300) : EReal :=
  Ideal.div (∑ r : Fin 512, clsZ g wc1 bc1 r k) nGraphs

def clsVar (g : (⟨2, ![512, 300]⟩ : Shape).Idx → EReal) (wc1 : (⟨2, ![300, 300]⟩ : Shape).Idx → EReal)
    (bc1 : (⟨2, ![1, 300]⟩ : Shape).Idx → EReal) (k : Fin 300) : EReal :=
  Ideal.div (∑ r : Fin 512, (clsZ g wc1 bc1 r k - clsMu g wc1 bc1 k) * (clsZ g wc1 bc1 r k - clsMu g wc1 bc1 k)) nGraphs

def clsAct (g : (⟨2, ![512, 300]⟩ : Shape).Idx → EReal) (wc1 : (⟨2, ![300, 300]⟩ : Shape).Idx → EReal)
    (bc1 gam bet : (⟨2, ![1, 300]⟩ : Shape).Idx → EReal) (r : Fin 512) (k : Fin 300) : EReal :=
  max ((clsZ g wc1 bc1 r k - clsMu g wc1 bc1 k) * Ideal.rsqrt (clsVar g wc1 bc1 k + varEps) * gam (ix2 (0 : Fin 1) k)
    + bet (ix2 (0 : Fin 1) k)) 0

def cls (g : (⟨2, ![512, 300]⟩ : Shape).Idx → EReal) (wc1 : (⟨2, ![300, 300]⟩ : Shape).Idx → EReal)
    (bc1 gam bet : (⟨2, ![1, 300]⟩ : Shape).Idx → EReal) (wc2 : (⟨2, ![300, 10]⟩ : Shape).Idx → EReal)
    (bc2 : (⟨2, ![1, 10]⟩ : Shape).Idx → EReal) : (⟨2, ![512, 10]⟩ : Shape).Idx → EReal :=
  fun i => (∑ k : Fin 300, clsAct g wc1 bc1 gam bet (i 0) k * wc2 (ix2 k (i 1))) + bc2 (ix2 (0 : Fin 1) (i 1))

end Cert.Spec

end
-- ==== Proof.Val.KerModel.lean ====
import proofs.«403831_j9380208574710_1_alg».proof.Proof.Val.HostRead
import proofs.«403831_j9380208574710_1_alg».proof.Proof.Spec

noncomputable section

namespace Cert.Val

open Cert.KernelIdeal Cert.KernelIdeal.Gen
open Idealize.ShloMosaic Idealize.ShloMosaic.TcCoe Idealize.SL.Sem

/-- The first layer (input width 128) over the kernel program's own host operations. -/
def kerLayer0 (a0 : FVec Ideal S50000x128 .f32) (a1 : FVec Ideal S128x300 .f32) (a2 : FVec Ideal S300 .f32)
    (a3 : FVec Ideal S300x300 .f32) (a4 : FVec Ideal S300 .f32) (a15 : IVec S2x800000 32) : FVec Ideal S50000x300 .f32 :=
  Cert.Spec.mlp128 a0 (agg128 (F := Ideal) a0 a15) a1 (row300 (F := Ideal) a2) a3 (row300 (F := Ideal) a4)

/-- A later layer: its weights and biases are the members of the stacked arguments at the given offsets. -/
def kerLayerN (off3 : Fin 3 → ℕ) (hs3 : S4x300x300.Slices off3 S1x300x300) (off2 : Fin 2 → ℕ) (hs2 : S4x300.Slices off2 S1x300)
    (h : FVec Ideal S50000x300 .f32) (a5 : FVec Ideal S4x300x300 .f32) (a6 : FVec Ideal S4x300 .f32)
    (a7 : FVec Ideal S4x300x300 .f32) (a8 : FVec Ideal S4x300 .f32) (a15 : IVec S2x800000 32) : FVec Ideal S50000x300 .f32 :=
  Cert.Spec.mlp300 h (agg300 (F := Ideal) h a15) (wgtAt (F := Ideal) off3 hs3 a5) (biasAt (F := Ideal) off2 hs2 a6) (wgtAt (F := Ideal) off3 hs3 a7) (biasAt (F := Ideal) off2 hs2 a8)

/-- Five layers, the per-graph sums, the classifier, of the seventeen argument arrays in order. -/
def kerModel (a0 : FVec Ideal S50000x128 .f32) (a1 : FVec Ideal S128x300 .f32) (a2 : FVec Ideal S300 .f32)
    (a3 : FVec Ideal S300x300 .f32) (a4 : FVec Ideal S300 .f32) (a5 : FVec Ideal S4x300x300 .f32) (a6 : FVec Ideal S4x300 .f32)
    (a7 : FVec Ideal S4x300x300 .f32) (a8 : FVec Ideal S4x300 .f32) (a9 : FVec Ideal S300x300 .f32) (a10 : FVec Ideal S300 .f32)
    (a11 : FVec Ideal S300 .f32) (a12 : FVec Ideal S300 .f32) (a13 : FVec Ideal S300x10 .f32) (a14 : FVec Ideal S10 .f32)
    (a15 : IVec S2x800000 32) (a16 : IVec S50000 32) : FVec Ideal S512x10 .f32 :=
  Cert.Spec.cls
    (Cert.Spec.pool (shapeCast S50000x1 a16 shapeCasts_S50000_S50000x1)
      (kerLayerN ![3, 0, 0] slices_S4x300x300_S1x300x300_3_0_0 ![3, 0] slices_S4x300_S1x300_3_0
        (kerLayerN ![2, 0, 0] slices_S4x300x300_S1x300x300_2_0_0 ![2, 0] slices_S4x300_S1x300_2_0
          (kerLayerN ![1, 0, 0] slices_S4x300x300_S1x300x300_1_0_0 ![1, 0] slices_S4x300_S1x300_1_0
            (kerLayerN ![0, 0, 0] slices_S4x300x300_S1x300x300_0_0_0 ![0, 0] slices_S4x300_S1x300_0_0
              (kerLayer0 a0 a1 a2 a3 a4 a15) a5 a6 a7 a8 a15) a5 a6 a7 a8 a15) a5 a6 a7 a8 a15) a5 a6 a7 a8 a15))
    a9 (row300 (F := Ideal) a10) (row300 (F := Ideal) a11) (row300 (F := Ideal) a12) a13 (shapeCast S1x10 a14 shapeCasts_S10_S1x10)

end Cert.Val

end
-- ==== Proof.Val.MlpPay.lean ====
import proofs.«403831_j9380208574710_1_alg».proof.Proof.Gen.KernelIdeal.Skeleton
import proofs.«403831_j9380208574710_1_alg».proof.Proof.Spec
import Idealize.ShloMosaic.PureOps.Ideal.Laws
import Idealize.ShloMosaic.Lib.StackMember
import Idealize.ShloMosaic.Lib.ValueLayout

noncomputable section

namespace Cert.Val

open Idealize.ShloMosaic Idealize.ShloMosaic.ValueIdx Idealize.ShloMosaic.StackMember
open Cert.KernelIdeal

theorem zoff : (![0, 0] : Fin 2 → Nat) = fun _ => 0 := funext fun a => by fin_cases a <;> rfl

/-- relu(X W + b) at (p, q): the product is a sum over the contracted coordinate, the bias row is read at column q. -/
theorem dense_apply {m k n : ℕ} (d : DotDims ⟨2, ![m, k]⟩ ⟨2, ![k, n]⟩ ⟨2, ![m, n]⟩) (hd : d = DotDims.plain m k n)
    (X : FVec Ideal ⟨2, ![m, k]⟩ .f32) (W : FVec Ideal ⟨2, ![k, n]⟩ .f32) (b : FVec Ideal ⟨2, ![1, n]⟩ .f32)
    (hb : FTy.bits .bf16 < FTy.bits .f32) (hbr : (⟨2, ![1, n]⟩ : Shape).Broadcasts ⟨2, ![m, n]⟩) (p : Fin m) (q : Fin n) :
    maximumf (addf (matmul d none (truncf .bf16 X hb) (truncf .bf16 W hb) (constant (F := Ideal) ⟨2, ![m, n]⟩ .f32 0x00000000#32))
        (broadcastTo ⟨2, ![m, n]⟩ b hbr)) (broadcast ⟨2, ![m, n]⟩ (Scalar.ofBits (F := Ideal) .f32 0x00000000#32)) (ix2 p q)
      = max ((∑ a : Fin k, X (ix2 p a) * W (ix2 a q)) + b (ix2 (0 : Fin 1) q)) 0 := by
  subst hd
  rw [maximumf_apply, addf_apply, broadcastTo_1b_ab_apply, broadcast_apply]
  refine congrArg₂ max (congrArg (· + _) ?_) Ideal.ofBits_zero_f32
  exact (Ideal.matmul_constant_zero_apply _ none _ _ _).trans
    ((Ideal.dotGeneral_apply _ none .single _ _ _).symm.trans (dotGeneral_plain_apply none (truncf .bf16 X hb) (truncf .bf16 W hb) p q))

/-- Entry (p, q) of the width-300 tile depends on row p of the node tiles only: it is the dense part at (r, q). -/
theorem mlp300_tile (f) (hf : f = Gen.k1_pay1 (F := Ideal)) (H AG : Vec Ideal S50000x300 .f32) (W1 W2 xc xe : Vec Ideal S300x300 .f32)
    (B1 B2 xd xf : Vec Ideal S1x300 .f32) (xa xb : Vec Ideal S2000x300 .f32) (r : Fin 50000) (p : Fin 2000) (q : Fin 300)
    (ha : ∀ a, xa (ix2 p a) = H (ix2 r a)) (hb : ∀ a, xb (ix2 p a) = AG (ix2 r a)) (hc : xc = W1) (hd : xd = B1) (he : xe = W2) (hg : xf = B2) :
    f xa xb xc xd xe xf (ix2 p q) = Cert.Spec.mlp300 H AG W1 B1 W2 B2 (ix2 r q) := by
  subst hf hc hd he hg
  unfold Gen.k1_pay1
  simp only [shapeCast_self]
  refine (dense_apply _ rfl _ _ _ _ _ p q).trans ?_
  unfold Cert.Spec.mlp300 Cert.Spec.hid300
  refine congrArg (fun s => max (s + xf (ix2 (0 : Fin 1) q)) 0) (Finset.sum_congr rfl fun k _ => congrArg (· * xe (ix2 k q)) ?_)
  refine (dense_apply _ rfl _ _ _ _ _ p k).trans ?_
  simp only [addf_apply, ha, hb]

/-- The same at input width 128. -/
theorem mlp128_tile (H AG : Vec Ideal S50000x128 .f32) (W1 xc : Vec Ideal S128x300 .f32) (W2 xe : Vec Ideal S300x300 .f32)
    (B1 B2 xd xf : Vec Ideal S1x300 .f32) (xa xb : Vec Ideal S2000x128 .f32) (r : Fin 50000) (p : Fin 2000) (q : Fin 300)
    (ha : ∀ a, xa (ix2 p a) = H (ix2 r a)) (hb : ∀ a, xb (ix2 p a) = AG (ix2 r a)) (hc : xc = W1) (hd : xd = B1) (he : xe = W2) (hg : xf = B2) :
    Gen.k0_pay1 (F := Ideal) xa xb xc xd xe xf (ix2 p q) = Cert.Spec.mlp128 H AG W1 B1 W2 B2 (ix2 r q) := by
  subst hc hd he hg
  unfold Gen.k0_pay1
  simp only [shapeCast_self]
  refine (dense_apply _ rfl _ _ _ _ _ p q).trans ?_
  unfold Cert.Spec.mlp128 Cert.Spec.hid128
  refine congrArg (fun s => max (s + xf (ix2 (0 : Fin 1) q)) 0) (Finset.sum_congr rfl fun k _ => congrArg (· * xe (ix2 k q)) ?_)
  refine (dense_apply _ rfl _ _ _ _ _ p k).trans ?_
  simp only [addf_apply, ha, hb]

/-- Row i₀ of the result array lies in block i₀ / 2000 of the rows. -/
theorem mem_blk (i : S50000x300.Idx) (idx : Fin 2 → ℕ) {inb} (h0 : idx 0 = (i 0).val / 2000) (h1 : idx 1 = 0) :
    i ∈ (Rect.unit (s := S50000x300) (fun a => idx a * S2000x300.size a) S2000x300.size inb).set := by
  have hi0 : (i 0).val < 50000 := (i 0).isLt
  have hi1 : (i 1).val < 300 := (i 1).isLt
  rw [Rect.mem_set_unit]
  intro a
  match a with
  | ⟨0, _⟩ => show idx 0 * 2000 ≤ (i 0).val ∧ (i 0).val < idx 0 * 2000 + 2000; omega
  | ⟨1, _⟩ => show idx 1 * 300 ≤ (i 1).val ∧ (i 1).val < idx 1 * 300 + 300; omega

end Cert.Val

end
-- ==== Proof.Val.MlpArr0.lean ====
import proofs.«403831_j9380208574710_1_alg».proof.Proof.KI.Mlp0
import proofs.«403831_j9380208574710_1_alg».proof.Proof.Val.MlpPay

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem ixf0 : ∀ t : Fin cfg0.N,
    win0_0.index t (0 : Fin 2) = t.val ∧ win0_0.index t (1 : Fin 2) = 0
    ∧ win0_1.index t (0 : Fin 2) = t.val ∧ win0_1.index t (1 : Fin 2) = 0
    ∧ (∀ a : Fin 2, win0_2.index t a = 0) ∧ (∀ a : Fin 2, win0_3.index t a = 0)
    ∧ (∀ a : Fin 2, win0_4.index t a = 0) ∧ (∀ a : Fin 2, win0_5.index t a = 0)
    ∧ win0_6.index t (0 : Fin 2) = t.val ∧ win0_6.index t (1 : Fin 2) = 0 :=
  (by decide +kernel : ∀ t : Fin grid0.N, _)

/-- The result blocks cover the result array: row i₀ is in block i₀ / 2000. -/
theorem tiled0 (i : S50000x300.Idx) :
    ∃ t : Fin cfg0.N, (cfg0.win 6).flush t = true ∧ i ∈ ((cfg0.win 6).blk t).view.set := by
  have hN : cfg0.N = 25 := N_0
  have hi0 : (i 0).val < 50000 := (i 0).isLt
  let t : Fin cfg0.N := ⟨(i 0).val / 2000, by omega⟩
  obtain ⟨-, -, -, -, -, -, -, -, g0, g1⟩ := ixf0 t
  refine ⟨t, flush0_6 t, ?_⟩
  show i ∈ ((View.whole (Pipeline.arrRef spec0 6)).slice (win0_6.rect t)).set
  rw [View.set_slice_whole]
  exact mem_blk i (win0_6.index t) g0 g1

set_option maxHeartbeats 1000000 in
/-- The result array after region 0 is the dense part of the arrays the region found: point t writes back block t of it. -/
theorem arr0 (c : Dev nD) :
    (dat0 (F := Ideal) V c).arrAt 6 cfg0.N
      = Cert.Spec.mlp128 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 (F := Ideal) V c).arrAt_eq_of_cover 6 _ (fun t _ => by
    obtain ⟨a0, a1, b0, b1, c2, c3, c4, c5, g0, g1⟩ := ixf0 t
    show (cfg0.win 6).cut (grid0.coords t) ((dat0 V c).after 6 t) = _
    rw [after0_6]
    unfold out0_6
    rw [View.canon_unit_zero zoff]
    simp only [View.ld_unit_zero (S := S2000x128) zoff, View.ld_unit_zero (S := S128x300) zoff, View.ld_unit_zero (S := S300x300) zoff, View.ld_unit_zero (S := S1x300) zoff]
    have hN : cfg0.N = 25 := N_0
    funext j
    obtain ⟨p, q, rfl⟩ : ∃ (p : Fin 2000) (q : Fin 300), j = ix2 p q := ⟨j 0, j 1, eq_ix2 j⟩
    have hr : t.val * 2000 + p.val < 50000 := by have := t.isLt; have := p.isLt; omega
    show _ = Cert.Spec.mlp128 _ _ _ _ _ _ (((cfg0.win 6).blk t).view.emb (ix2 p q))
    rw [show ((cfg0.win 6).blk t).view.emb (ix2 p q) = ix2 (⟨t.val * 2000 + p.val, hr⟩ : Fin 50000) q from
      Shape.idx_ext₂ ((win0_6.rect_emb_val t _ (0 : Fin 2)).trans (congrArg (· * 2000 + p.val) g0))
        (win0_6.rect_emb_val_of_index_zero t (1 : Fin 2) g1 _)]
    exact mlp128_tile _ _ _ _ _ _ _ _ _ _ _ _ _ p q
      (fun a => congrArg (V c _) (Shape.idx_ext₂ ((win0_0.rect_emb_val t _ (0 : Fin 2)).trans (congrArg (· * 2000 + p.val) a0))
        (win0_0.rect_emb_val_of_index_zero t (1 : Fin 2) a1 _)))
      (fun a => congrArg (V c _) (Shape.idx_ext₂ ((win0_1.rect_emb_val t _ (0 : Fin 2)).trans (congrArg (· * 2000 + p.val) b0))
        (win0_1.rect_emb_val_of_index_zero t (1 : Fin 2) b1 _)))
      (funext fun y => congrArg (V c _) (funext fun a => Fin.ext (win0_2.rect_emb_val_of_index_zero t a (c2 a) y)))
      (funext fun y => congrArg (V c _) (funext fun a => Fin.ext (win0_3.rect_emb_val_of_index_zero t a (c3 a) y)))
      (funext fun y => congrArg (V c _) (funext fun a => Fin.ext (win0_4.rect_emb_val_of_index_zero t a (c4 a) y)))
      (funext fun y => congrArg (V c _) (funext fun a => Fin.ext (win0_5.rect_emb_val_of_index_zero t a (c5 a) y)))) tiled0

end Cert.Val

end
-- ==== Proof.Val.MlpArr1.lean ====
import proofs.«403831_j9380208574710_1_alg».proof.Proof.KI.Mlp1
import proofs.«403831_j9380208574710_1_alg».proof.Proof.Val.MlpPay

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem ixf1 : ∀ t : Fin cfg1.N,
    win1_0.index t (0 : Fin 2) = t.val ∧ win1_0.index t (1 : Fin 2) = 0
    ∧ win1_1.index t (0 : Fin 2) = t.val ∧ win1_1.index t (1 : Fin 2) = 0
    ∧ (∀ a : Fin 2, win1_2.index t a = 0) ∧ (∀ a : Fin 2, win1_3.index t a = 0)
    ∧ (∀ a : Fin 2, win1_4.index t a = 0) ∧ (∀ a : Fin 2, win1_5.index t a = 0)
    ∧ win1_6.index t (0 : Fin 2) = t.val ∧ win1_6.index t (1 : Fin 2) = 0 :=
  (by decide +kernel : ∀ t : Fin grid1.N, _)

/-- The result blocks cover the result array: row i₀ is in block i₀ / 2000. -/
theorem tiled1 (i : S50000x300.Idx) :
    ∃ t : Fin cfg1.N, (cfg1.win 6).flush t = true ∧ i ∈ ((cfg1.win 6).blk t).view.set := by
  have hN : cfg1.N = 25 := N_1
  have hi0 : (i 0).val < 50000 := (i 0).isLt
  let t : Fin cfg1.N := ⟨(i 0).val / 2000, by omega⟩
  obtain ⟨-, -, -, -, -, -, -, -, g0, g1⟩ := ixf1 t
  refine ⟨t, flush1_6 t, ?_⟩
  show i ∈ ((View.whole (Pipeline.arrRef spec1 6)).slice (win1_6.rect t)).set
  rw [View.set_slice_whole]
  exact mem_blk i (win1_6.index t) g0 g1

set_option maxHeartbeats 1000000 in
/-- The result array after region 1 is the dense part of the arrays the region found: point t writes back block t of it. -/
theorem arr1 (c : Dev nD) :
    (dat1 (F := Ideal) V c).arrAt 6 cfg1.N
      = Cert.Spec.mlp300 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 (F := Ideal) V c).arrAt_eq_of_cover 6 _ (fun t _ => by
    obtain ⟨a0, a1, b0, b1, c2, c3, c4, c5, g0, g1⟩ := ixf1 t
    show (cfg1.win 6).cut (grid1.coords t) ((dat1 V c).after 6 t) = _
    rw [after1_6]
    unfold out1_6
    rw [View.canon_unit_zero zoff]
    simp only [View.ld_unit_zero (S := S2000x300) zoff, View.ld_unit_zero (S := S300x300) zoff, View.ld_unit_zero (S := S1x300) zoff]
    have hN : cfg1.N = 25 := N_1
    funext j
    obtain ⟨p, q, rfl⟩ : ∃ (p : Fin 2000) (q : Fin 300), j = ix2 p q := ⟨j 0, j 1, eq_ix2 j⟩
    have hr : t.val * 2000 + p.val < 50000 := by have := t.isLt; have := p.isLt; omega
    show _ = Cert.Spec.mlp300 _ _ _ _ _ _ (((cfg1.win 6).blk t).view.emb (ix2 p q))
    rw [show ((cfg1.win 6).blk t).view.emb (ix2 p q) = ix2 (⟨t.val * 2000 + p.val, hr⟩ : Fin 50000) q from
      Shape.idx_ext₂ ((win1_6.rect_emb_val t _ (0 : Fin 2)).trans (congrArg (· * 2000 + p.val) g0))
        (win1_6.rect_emb_val_of_index_zero t (1 : Fin 2) g1 _)]
    exact mlp300_tile k1_pay1 rfl _ _ _ _ _ _ _ _ _ _ _ _ _ p q
      (fun a => congrArg (V c _) (Shape.idx_ext₂ ((win1_0.rect_emb_val t _ (0 : Fin 2)).trans (congrArg (· * 2000 + p.val) a0))
        (win1_0.rect_emb_val_of_index_zero t (1 : Fin 2) a1 _)))
      (fun a => congrArg (V c _) (Shape.idx_ext₂ ((win1_1.rect_emb_val t _ (0 : Fin 2)).trans (congrArg (· * 2000 + p.val) b0))
        (win1_1.rect_emb_val_of_index_zero t (1 : Fin 2) b1 _)))
      (funext fun y => congrArg (V c _) (funext fun a => Fin.ext (win1_2.rect_emb_val_of_index_zero t a (c2 a) y)))
      (funext fun y => congrArg (V c _) (funext fun a => Fin.ext (win1_3.rect_emb_val_of_index_zero t a (c3 a) y)))
      (funext fun y => congrArg (V c _) (funext fun a => Fin.ext (win1_4.rect_emb_val_of_index_zero t a (c4 a) y)))
      (funext fun y => congrArg (V c _) (funext fun a => Fin.ext (win1_5.rect_emb_val_of_index_zero t a (c5 a) y)))) tiled1

end Cert.Val

end
-- ==== Proof.Val.MlpArr2.lean ====
import proofs.«403831_j9380208574710_1_alg».proof.Proof.KI.Mlp2
import proofs.«403831_j9380208574710_1_alg».proof.Proof.Val.MlpPay

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem ixf2 : ∀ t : Fin cfg2.N,
    win2_0.index t (0 : Fin 2) = t.val ∧ win2_0.index t (1 : Fin 2) = 0
    ∧ win2_1.index t (0 : Fin 2) = t.val ∧ win2_1.index t (1 : Fin 2) = 0
    ∧ (∀ a : Fin 2, win2_2.index t a = 0) ∧ (∀ a : Fin 2, win2_3.index t a = 0)
    ∧ (∀ a : Fin 2, win2_4.index t a = 0) ∧ (∀ a : Fin 2, win2_5.index t a = 0)
    ∧ win2_6.index t (0 : Fin 2) = t.val ∧ win2_6.index t (1 : Fin 2) = 0 :=
  (by decide +kernel : ∀ t : Fin grid2.N, _)

/-- The result blocks cover the result array: row i₀ is in block i₀ / 2000. -/
theorem tiled2 (i : S50000x300.Idx) :
    ∃ t : Fin cfg2.N, (cfg2.win 6).flush t = true ∧ i ∈ ((cfg2.win 6).blk t).view.set := by
  have hN : cfg2.N = 25 := N_2
  have hi0 : (i 0).val < 50000 := (i 0).isLt
  let t : Fin cfg2.N := ⟨(i 0).val / 2000, by omega⟩
  obtain ⟨-, -, -, -, -, -, -, -, g0, g1⟩ := ixf2 t
  refine ⟨t, flush2_6 t, ?_⟩
  show i ∈ ((View.whole (Pipeline.arrRef spec2 6)).slice (win2_6.rect t)).set
  rw [View.set_slice_whole]
  exact mem_blk i (win2_6.index t) g0 g1

set_option maxHeartbeats 1000000 in
/-- The result array after region 2 is the dense part of the arrays the region found: point t writes back block t of it. -/
theorem arr2 (c : Dev nD) :
    (dat2 (F := Ideal) V c).arrAt 6 cfg2.N
      = Cert.Spec.mlp300 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 _ (fun t _ => by
    obtain ⟨a0, a1, b0, b1, c2, c3, c4, c5, g0, g1⟩ := ixf2 t
    show (cfg2.win 6).cut (grid2.coords t) ((dat2 V c).after 6 t) = _
    rw [after2_6]
    unfold out2_6
    rw [View.canon_unit_zero zoff]
    simp only [View.ld_unit_zero (S := S2000x300) zoff, View.ld_unit_zero (S := S300x300) zoff, View.ld_unit_zero (S := S1x300) zoff]
    have hN : cfg2.N = 25 := N_2
    funext j
    obtain ⟨p, q, rfl⟩ : ∃ (p : Fin 2000) (q : Fin 300), j = ix2 p q := ⟨j 0, j 1, eq_ix2 j⟩
    have hr : t.val * 2000 + p.val < 50000 := by have := t.isLt; have := p.isLt; omega
    show _ = Cert.Spec.mlp300 _ _ _ _ _ _ (((cfg2.win 6).blk t).view.emb (ix2 p q))
    rw [show ((cfg2.win 6).blk t).view.emb (ix2 p q) = ix2 (⟨t.val * 2000 + p.val, hr⟩ : Fin 50000) q from
      Shape.idx_ext₂ ((win2_6.rect_emb_val t _ (0 : Fin 2)).trans (congrArg (· * 2000 + p.val) g0))
        (win2_6.rect_emb_val_of_index_zero t (1 : Fin 2) g1 _)]
    exact mlp300_tile k2_pay1 rfl _ _ _ _ _ _ _ _ _ _ _ _ _ p q
      (fun a => congrArg (V c _) (Shape.idx_ext₂ ((win2_0.rect_emb_val t _ (0 : Fin 2)).trans (congrArg (· * 2000 + p.val) a0))
        (win2_0.rect_emb_val_of_index_zero t (1 : Fin 2) a1 _)))
      (fun a => congrArg (V c _) (Shape.idx_ext₂ ((win2_1.rect_emb_val t _ (0 : Fin 2)).trans (congrArg (· * 2000 + p.val) b0))
        (win2_1.rect_emb_val_of_index_zero t (1 : Fin 2) b1 _)))
      (funext fun y => congrArg (V c _) (funext fun a => Fin.ext (win2_2.rect_emb_val_of_index_zero t a (c2 a) y)))
      (funext fun y => congrArg (V c _) (funext fun a => Fin.ext (win2_3.rect_emb_val_of_index_zero t a (c3 a) y)))
      (funext fun y => congrArg (V c _) (funext fun a => Fin.ext (win2_4.rect_emb_val_of_index_zero t a (c4 a) y)))
      (funext fun y => congrArg (V c _) (funext fun a => Fin.ext (win2_5.rect_emb_val_of_index_zero t a (c5 a) y)))) tiled2

end Cert.Val

end
-- ==== Proof.Val.MlpArr3.lean ====
import proofs.«403831_j9380208574710_1_alg».proof.Proof.KI.Mlp3
import proofs.«403831_j9380208574710_1_alg».proof.Proof.Val.MlpPay

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem ixf3 : ∀ t : Fin cfg3.N,
    win3_0.index t (0 : Fin 2) = t.val ∧ win3_0.index t (1 : Fin 2) = 0
    ∧ win3_1.index t (0 : Fin 2) = t.val ∧ win3_1.index t (1 : Fin 2) = 0
    ∧ (∀ a : Fin 2, win3_2.index t a = 0) ∧ (∀ a : Fin 2, win3_3.index t a = 0)
    ∧ (∀ a : Fin 2, win3_4.index t a = 0) ∧ (∀ a : Fin 2, win3_5.index t a = 0)
    ∧ win3_6.index t (0 : Fin 2) = t.val ∧ win3_6.index t (1 : Fin 2) = 0 :=
  (by decide +kernel : ∀ t : Fin grid3.N, _)

/-- The result blocks cover the result array: row i₀ is in block i₀ / 2000. -/
theorem tiled3 (i : S50000x300.Idx) :
    ∃ t : Fin cfg3.N, (cfg3.win 6).flush t = true ∧ i ∈ ((cfg3.win 6).blk t).view.set := by
  have hN : cfg3.N = 25 := N_3
  have hi0 : (i 0).val < 50000 := (i 0).isLt
  let t : Fin cfg3.N := ⟨(i 0).val / 2000, by omega⟩
  obtain ⟨-, -, -, -, -, -, -, -, g0, g1⟩ := ixf3 t
  refine ⟨t, flush3_6 t, ?_⟩
  show i ∈ ((View.whole (Pipeline.arrRef spec3 6)).slice (win3_6.rect t)).set
  rw [View.set_slice_whole]
  exact mem_blk i (win3_6.index t) g0 g1

set_option maxHeartbeats 1000000 in
/-- The result array after region 3 is the dense part of the arrays the region found: point t writes back block t of it. -/
theorem arr3 (c : Dev nD) :
    (dat3 (F := Ideal) V c).arrAt 6 cfg3.N
      = Cert.Spec.mlp300 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 (F := Ideal) V c).arrAt_eq_of_cover 6 _ (fun t _ => by
    obtain ⟨a0, a1, b0, b1, c2, c3, c4, c5, g0, g1⟩ := ixf3 t
    show (cfg3.win 6).cut (grid3.coords t) ((dat3 V c).after 6 t) = _
    rw [after3_6]
    unfold out3_6
    rw [View.canon_unit_zero zoff]
    simp only [View.ld_unit_zero (S := S2000x300) zoff, View.ld_unit_zero (S := S300x300) zoff, View.ld_unit_zero (S := S1x300) zoff]
    have hN : cfg3.N = 25 := N_3
    funext j
    obtain ⟨p, q, rfl⟩ : ∃ (p : Fin 2000) (q : Fin 300), j = ix2 p q := ⟨j 0, j 1, eq_ix2 j⟩
    have hr : t.val * 2000 + p.val < 50000 := by have := t.isLt; have := p.isLt; omega
    show _ = Cert.Spec.mlp300 _ _ _ _ _ _ (((cfg3.win 6).blk t).view.emb (ix2 p q))
    rw [show ((cfg3.win 6).blk t).view.emb (ix2 p q) = ix2 (⟨t.val * 2000 + p.val, hr⟩ : Fin 50000) q from
      Shape.idx_ext₂ ((win3_6.rect_emb_val t _ (0 : Fin 2)).trans (congrArg (· * 2000 + p.val) g0))
        (win3_6.rect_emb_val_of_index_zero t (1 : Fin 2) g1 _)]
    exact mlp300_tile k3_pay1 rfl _ _ _ _ _ _ _ _ _ _ _ _ _ p q
      (fun a => congrArg (V c _) (Shape.idx_ext₂ ((win3_0.rect_emb_val t _ (0 : Fin 2)).trans (congrArg (· * 2000 + p.val) a0))
        (win3_0.rect_emb_val_of_index_zero t (1 : Fin 2) a1 _)))
      (fun a => congrArg (V c _) (Shape.idx_ext₂ ((win3_1.rect_emb_val t _ (0 : Fin 2)).trans (congrArg (· * 2000 + p.val) b0))
        (win3_1.rect_emb_val_of_index_zero t (1 : Fin 2) b1 _)))
      (funext fun y => congrArg (V c _) (funext fun a => Fin.ext (win3_2.rect_emb_val_of_index_zero t a (c2 a) y)))
      (funext fun y => congrArg (V c _) (funext fun a => Fin.ext (win3_3.rect_emb_val_of_index_zero t a (c3 a) y)))
      (funext fun y => congrArg (V c _) (funext fun a => Fin.ext (win3_4.rect_emb_val_of_index_zero t a (c4 a) y)))
      (funext fun y => congrArg (V c _) (funext fun a => Fin.ext (win3_5.rect_emb_val_of_index_zero t a (c5 a) y)))) tiled3

end Cert.Val

end
-- ==== Proof.Val.MlpArr4.lean ====
import proofs.«403831_j9380208574710_1_alg».proof.Proof.KI.Mlp4
import proofs.«403831_j9380208574710_1_alg».proof.Proof.Val.MlpPay

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

theorem ixf4 : ∀ t : Fin cfg4.N,
    win4_0.index t (0 : Fin 2) = t.val ∧ win4_0.index t (1 : Fin 2) = 0
    ∧ win4_1.index t (0 : Fin 2) = t.val ∧ win4_1.index t (1 : Fin 2) = 0
    ∧ (∀ a : Fin 2, win4_2.index t a = 0) ∧ (∀ a : Fin 2, win4_3.index t a = 0)
    ∧ (∀ a : Fin 2, win4_4.index t a = 0) ∧ (∀ a : Fin 2, win4_5.index t a = 0)
    ∧ win4_6.index t (0 : Fin 2) = t.val ∧ win4_6.index t (1 : Fin 2) = 0 :=
  (by decide +kernel : ∀ t : Fin grid4.N, _)

/-- The result blocks cover the result array: row i₀ is in block i₀ / 2000. -/
theorem tiled4 (i : S50000x300.Idx) :
    ∃ t : Fin cfg4.N, (cfg4.win 6).flush t = true ∧ i ∈ ((cfg4.win 6).blk t).view.set := by
  have hN : cfg4.N = 25 := N_4
  have hi0 : (i 0).val < 50000 := (i 0).isLt
  let t : Fin cfg4.N := ⟨(i 0).val / 2000, by omega⟩
  obtain ⟨-, -, -, -, -, -, -, -, g0, g1⟩ := ixf4 t
  refine ⟨t, flush4_6 t, ?_⟩
  show i ∈ ((View.whole (Pipeline.arrRef spec4 6)).slice (win4_6.rect t)).set
  rw [View.set_slice_whole]
  exact mem_blk i (win4_6.index t) g0 g1

set_option maxHeartbeats 1000000 in
/-- The result array after region 4 is the dense part of the arrays the region found: point t writes back block t of it. -/
theorem arr4 (c : Dev nD) :
    (dat4 (F := Ideal) V c).arrAt 6 cfg4.N
      = Cert.Spec.mlp300 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 (F := Ideal) V c).arrAt_eq_of_cover 6 _ (fun t _ => by
    obtain ⟨a0, a1, b0, b1, c2, c3, c4, c5, g0, g1⟩ := ixf4 t
    show (cfg4.win 6).cut (grid4.coords t) ((dat4 V c).after 6 t) = _
    rw [after4_6]
    unfold out4_6
    rw [View.canon_unit_zero zoff]
    simp only [View.ld_unit_zero (S := S2000x300) zoff, View.ld_unit_zero (S := S300x300) zoff, View.ld_unit_zero (S := S1x300) zoff]
    have hN : cfg4.N = 25 := N_4
    funext j
    obtain ⟨p, q, rfl⟩ : ∃ (p : Fin 2000) (q : Fin 300), j = ix2 p q := ⟨j 0, j 1, eq_ix2 j⟩
    have hr : t.val * 2000 + p.val < 50000 := by have := t.isLt; have := p.isLt; omega
    show _ = Cert.Spec.mlp300 _ _ _ _ _ _ (((cfg4.win 6).blk t).view.emb (ix2 p q))
    rw [show ((cfg4.win 6).blk t).view.emb (ix2 p q) = ix2 (⟨t.val * 2000 + p.val, hr⟩ : Fin 50000) q from
      Shape.idx_ext₂ ((win4_6.rect_emb_val t _ (0 : Fin 2)).trans (congrArg (· * 2000 + p.val) g0))
        (win4_6.rect_emb_val_of_index_zero t (1 : Fin 2) g1 _)]
    exact mlp300_tile k4_pay1 rfl _ _ _ _ _ _ _ _ _ _ _ _ _ p q
      (fun a => congrArg (V c _) (Shape.idx_ext₂ ((win4_0.rect_emb_val t _ (0 : Fin 2)).trans (congrArg (· * 2000 + p.val) a0))
        (win4_0.rect_emb_val_of_index_zero t (1 : Fin 2) a1 _)))
      (fun a => congrArg (V c _) (Shape.idx_ext₂ ((win4_1.rect_emb_val t _ (0 : Fin 2)).trans (congrArg (· * 2000 + p.val) b0))
        (win4_1.rect_emb_val_of_index_zero t (1 : Fin 2) b1 _)))
      (funext fun y => congrArg (V c _) (funext fun a => Fin.ext (win4_2.rect_emb_val_of_index_zero t a (c2 a) y)))
      (funext fun y => congrArg (V c _) (funext fun a => Fin.ext (win4_3.rect_emb_val_of_index_zero t a (c3 a) y)))
      (funext fun y => congrArg (V c _) (funext fun a => Fin.ext (win4_4.rect_emb_val_of_index_zero t a (c4 a) y)))
      (funext fun y => congrArg (V c _) (funext fun a => Fin.ext (win4_5.rect_emb_val_of_index_zero t a (c5 a) y)))) tiled4

end Cert.Val

end
-- ==== Proof.Val.PoolPay.lean ====
import proofs.«403831_j9380208574710_1_alg».proof.Proof.Gen.KernelIdeal.Skeleton
import proofs.«403831_j9380208574710_1_alg».proof.Proof.Spec
import Idealize.ShloMosaic.PureOps.Ideal.Laws
import Idealize.ShloMosaic.Lib.ValueLayout

noncomputable section

namespace Cert.Val

open Cert.KernelIdeal Cert.KernelIdeal.Gen Idealize.ShloMosaic Idealize.ShloMosaic.ValueIdx

theorem toInt_ofNat_small (n : Nat) (hn : n < 512) : (BitVec.ofNat 32 n).toInt = (n : ℤ) := by
  rw [BitVec.toInt_eq_toNat_cond, BitVec.toNat_ofNat, Nat.mod_eq_of_lt (show n < 2 ^ 32 by omega)]
  split <;> omega

/-- Signed reading is injective, so comparing a word with a small number's word compares their signed readings. -/
theorem cmpi_eq_val (w : BitVec 32) (n : Nat) (hn : n < 512) :
    (((IntOp.cmpi .eq w (BitVec.ofNat 32 n)).setWidth 32).toInt : ℝ) = if w.toInt = (n : ℤ) then 1 else 0 := by
  have hw : w = BitVec.ofNat 32 n ↔ w.toInt = (n : ℤ) := by rw [← BitVec.toInt_inj, toInt_ofNat_small n hn]
  by_cases h : w = BitVec.ofNat 32 n
  · rw [if_pos (hw.mp h)]; subst h; simp [IntOp.cmpi]
  · rw [if_neg (mt hw.mpr h)]
    have : (w == BitVec.ofNat 32 n) = false := by simpa using h
    simp [IntOp.cmpi, this]

theorem idcol_apply (ids : IVec S2000x1 32) (hs : S2000x1.ShapeCasts S2000x1) (hb : S2000x1.Broadcasts S2000x512)
    (r : Fin 2000) (n : Fin 512) :
    broadcastTo S2000x512 (shapeCast S2000x1 ids hs) hb (ix2 r n) = ids (ix2 r (0 : Fin 1)) := by
  rw [shapeCast_self]
  exact congrArg ids (funext fun a => match a with | ⟨0, _⟩ => rfl | ⟨1, _⟩ => rfl)

/-- The entry (r, n) of the membership matrix: 1 when row r's word reads signed as n, else 0. -/
theorem onehot_apply (ids : IVec S2000x1 32) (r : Fin 2000) (n : Fin 512) :
    (truncf .bf16 (sitofp .f32 (extui 32 (cmpi .eq (broadcastTo S2000x512 (shapeCast S2000x1 ids shapeCasts_S2000x1_S2000x1) broadcasts_S2000x1_S2000x512)
        (iota .tc S2000x512 32 [1] iota_S2000x512_d1_w32)) natLt_1_32)) bitsLt_bf16_f32 : FVec Ideal S2000x512 .bf16) (ix2 r n)
      = if (ids (ix2 r (0 : Fin 1))).toInt = (n.val : ℤ) then 1 else 0 := by
  show ((((IntOp.cmpi .eq (broadcastTo S2000x512 (shapeCast S2000x1 ids shapeCasts_S2000x1_S2000x1) broadcasts_S2000x1_S2000x512 (ix2 r n))
      (iota .tc S2000x512 32 [1] iota_S2000x512_d1_w32 (ix2 r n))).setWidth 32).toInt : ℝ) : EReal) = _
  rw [idcol_apply, iota_single_apply]
  show ((((IntOp.cmpi .eq _ (BitVec.ofNat 32 n.val)).setWidth 32).toInt : ℝ) : EReal) = _
  rw [cmpi_eq_val _ _ n.isLt]
  split <;> simp

abbrev Dpool := Cert.KernelIdeal.dot_S2000x512_S2000x300_S512x300_0_0_1_1_n_n

/-- Both operands are contracted on their rows: entry (n, j) of the product into zero sums A(r, n) B(r, j) over the rows r. -/
theorem dpool_mm (A : FVec Ideal S2000x512 .bf16) (B : FVec Ideal S2000x300 .bf16) (n : Fin 512) (j : Fin 300) :
    matmul (F := Ideal) Dpool none A B (constant (F := Ideal) S512x300 .f32 0x00000000#32) (ix2 n j)
      = ∑ r : Fin 2000, A (ix2 r n) * B (ix2 r j) := by
  refine (Ideal.matmul_constant_zero_apply Dpool none A B (ix2 n j)).trans ?_
  rw [← Equiv.sum_comp (contrEquiv1 Dpool 2000 rfl rfl).symm]
  refine Finset.sum_congr rfl fun c _ => ?_
  have c2 := contrEquiv1_symm_val Dpool 2000 rfl rfl c
  congr 2 <;> funext ax <;> apply Fin.ext <;> match ax with
    | ⟨0, _⟩ => first | rfl | exact c2
    | ⟨1, _⟩ => first | rfl | exact c2

/-- Multiplying the membership matrix's transpose into the tile adds, at (n, j), the tile's rows whose word reads n. -/
theorem k5_pay2_apply (ids : Vec Ideal S2000x1 .i32) (ht : Vec Ideal S2000x300 .f32) (acc : Vec Ideal S512x300 .f32)
    (n : Fin 512) (j : Fin 300) :
    Cert.KernelIdeal.Gen.k5_pay2 (F := Ideal) ids ht acc (ix2 n j)
      = acc (ix2 n j) + ∑ r ∈ Finset.univ.filter (fun r : Fin 2000 => (ids (ix2 r (0 : Fin 1))).toInt = ((n.val : ℤ))),
          ht (ix2 r j) := by
  unfold k5_pay2
  rw [shapeCast_self, shapeCast_self ht]
  refine congrArg (acc (ix2 n j) + ·) ((dpool_mm _ _ n j).trans ?_)
  rw [Finset.sum_filter]
  refine Finset.sum_congr rfl fun c _ => ?_
  rw [onehot_apply]
  show (if (ids (ix2 c (0 : Fin 1))).toInt = (n.val : ℤ) then (1 : EReal) else 0) * ht (ix2 c j) = _
  split
  · rw [one_mul]
  · rw [zero_mul]

theorem k5_pay1_apply (n : Fin 512) (j : Fin 300) : Cert.KernelIdeal.Gen.k5_pay1 (F := Ideal) (ix2 n j) = 0 := by
  unfold k5_pay1
  rw [shapeCast_self]
  exact Ideal.ofBits_zero_f32

end Cert.Val

end
-- ==== Proof.Val.PoolSum.lean ====
import proofs.«403831_j9380208574710_1_alg».proof.Proof.Spec

noncomputable section

namespace Cert.Val

open Idealize.ShloMosaic Idealize.ShloMosaic.ValueIdx

/-- Row r of tile k is node 2000k + r. -/
def tileNode (k : ℕ) (hk : k < 25) (r : Fin 2000) : Fin 50000 := ⟨2000 * k + r.val, by have := r.isLt; omega⟩

/-- The nodes below 2000(k + 1) are those below 2000k and, one for one, the rows of tile k. -/
theorem sum_filter_tile {M : Type} [AddCommMonoid M] (p : Fin 50000 → Prop) [DecidablePred p] (f : Fin 50000 → M)
    (k : ℕ) (hk : k < 25) :
    ∑ e ∈ Finset.univ.filter (fun e : Fin 50000 => e.val < 2000 * (k + 1) ∧ p e), f e
      = ∑ e ∈ Finset.univ.filter (fun e : Fin 50000 => e.val < 2000 * k ∧ p e), f e
        + ∑ r ∈ Finset.univ.filter (fun r : Fin 2000 => p (tileNode k hk r)), f (tileNode k hk r) := by
  have hsplit : Finset.univ.filter (fun e : Fin 50000 => e.val < 2000 * (k + 1) ∧ p e)
      = Finset.univ.filter (fun e : Fin 50000 => e.val < 2000 * k ∧ p e)
        ∪ Finset.univ.filter (fun e : Fin 50000 => (2000 * k ≤ e.val ∧ e.val < 2000 * (k + 1)) ∧ p e) := by
    rw [← Finset.filter_or]
    exact Finset.filter_congr fun e _ => by by_cases hp : p e <;> simp only [hp, and_true, and_false, or_false] <;> omega
  rw [hsplit, Finset.sum_union (Finset.disjoint_filter.mpr fun e _ h1 h2 => by omega)]
  refine congrArg (HAdd.hAdd _) (Eq.symm (Finset.sum_nbij (tileNode k hk) (fun r hr => ?_) (fun a _ b _ hab => ?_) (fun e he => ?_) fun _ _ => rfl))
  · have := r.isLt
    exact Finset.mem_filter.mpr ⟨Finset.mem_univ _, ⟨by show 2000 * k ≤ 2000 * k + r.val; omega, by show 2000 * k + r.val < _; omega⟩, (Finset.mem_filter.mp hr).2⟩
  · exact Fin.ext (by have : 2000 * k + a.val = 2000 * k + b.val := congrArg Fin.val hab; omega)
  · obtain ⟨⟨h1, h2⟩, h3⟩ := (Finset.mem_filter.mp (Finset.mem_coe.mp he)).2
    have e' : tileNode k hk ⟨e.val - 2000 * k, by omega⟩ = e := Fin.ext (by show 2000 * k + (e.val - 2000 * k) = e.val; omega)
    exact ⟨_, Finset.mem_filter.mpr ⟨Finset.mem_univ _, by rwa [e']⟩, e'⟩

variable (ids : (⟨2, ![50000, 1]⟩ : Shape).Idx → BitVec 32) (h : (⟨2, ![50000, 300]⟩ : Shape).Idx → EReal)

/-- The sums restricted to the nodes below 2000k. -/
def poolUpTo (k : ℕ) :
    (⟨2, ![512, 300]⟩ : Shape).Idx → EReal :=
  fun i => ∑ e ∈ Finset.univ.filter (fun e : Fin 50000 =>
      e.val < 2000 * k ∧ (ids (ix2 e (0 : Fin 1))).toInt = (((i 0 : Fin 512)).val : ℤ)), h (ix2 e (i 1))

theorem poolUpTo_zero (i : (⟨2, ![512, 300]⟩ : Shape).Idx) : poolUpTo ids h 0 i = 0 :=
  Finset.sum_eq_zero fun e he => absurd (Finset.mem_filter.mp he).2.1 (by omega)

theorem poolUpTo_succ (k : ℕ) (hk : k < 25) (n : Fin 512) (j : Fin 300) :
    poolUpTo ids h (k + 1) (ix2 n j)
      = poolUpTo ids h k (ix2 n j)
        + ∑ r ∈ Finset.univ.filter (fun r : Fin 2000 => (ids (ix2 (tileNode k hk r) (0 : Fin 1))).toInt = (n.val : ℤ)),
            h (ix2 (tileNode k hk r) j) :=
  sum_filter_tile (fun e : Fin 50000 => (ids (ix2 e (0 : Fin 1))).toInt = (n.val : ℤ)) (fun e => h (ix2 e j)) k hk

theorem poolUpTo_all : poolUpTo ids h 25 = Cert.Spec.pool ids h :=
  funext fun _ => Finset.sum_congr (Finset.filter_congr fun e _ => ⟨fun h => h.2, fun h => ⟨by have := e.isLt; omega, h⟩⟩) fun _ _ => rfl

end Cert.Val

end
-- ==== Proof.Val.PoolArr.lean ====
import proofs.«403831_j9380208574710_1_alg».proof.Proof.KI.Pool
import proofs.«403831_j9380208574710_1_alg».proof.Proof.Val.PoolPay
import proofs.«403831_j9380208574710_1_alg».proof.Proof.Val.PoolSum

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx5_0 : ∀ t : Fin grid5.N, win5_0.index t 0 = t.val ∧ win5_0.index t 1 = 0 := by decide +kernel
theorem idx5_1 : ∀ t : Fin grid5.N, win5_1.index t 0 = t.val ∧ win5_1.index t 1 = 0 := by decide +kernel

theorem lt25 (t : Fin cfg5.N) : t.val < 25 := lt_of_lt_of_eq t.isLt N_5

/-- The blocks at point t hold the rows of the nodes 2000t … 2000t + 1999. -/
theorem hblk_apply (c : Dev nD) (t : Fin cfg5.N) (r : Fin 2000) (j : Fin 300) :
    (iblk5 V c 0 t : Vec Ideal S2000x300 .f32) (ix2 r j)
      = (V c main_v100 : S50000x300.Idx → EReal) (ix2 (tileNode t.val (lt25 t) r) j) := by
  have hi := idx5_0 t
  refine congrArg (V c main_v100) (funext fun a => Fin.ext ?_)
  match a with
  | ⟨0, _⟩ => show win5_0.index t 0 * 2000 + 1 * r.val = 2000 * t.val + r.val; rw [hi.1]; omega
  | ⟨1, _⟩ => show win5_0.index t 1 * 300 + 1 * j.val = j.val; rw [hi.2]; omega

theorem idblk_apply (c : Dev nD) (t : Fin cfg5.N) (r : Fin 2000) (z : Fin 1) :
    (iblk5 V c 1 t : Vec Ideal S2000x1 .i32) (ix2 r z)
      = (V c main_v101 : S50000x1.Idx → BitVec 32) (ix2 (tileNode t.val (lt25 t) r) z) := by
  have hi := idx5_1 t
  refine congrArg (V c main_v101) (funext fun a => Fin.ext ?_)
  match a with
  | ⟨0, _⟩ => show win5_1.index t 0 * 2000 + 1 * r.val = 2000 * t.val + r.val; rw [hi.1]; omega
  | ⟨1, _⟩ => show win5_1.index t 1 * 1 + 1 * z.val = z.val; rw [hi.2]; omega

/-- Adding tile t's rows to the sums over the nodes below 2000t gives the sums over the nodes below 2000(t + 1). -/
theorem step_eq (c : Dev nD) (t : Fin cfg5.N) (acc : Vec Ideal S512x300 .f32)
    (hacc : acc = poolUpTo (V c main_v101) (V c main_v100) t.val) :
    k5_pay2 (F := Ideal) (iblk5 V c 1 t) (iblk5 V c 0 t) acc = poolUpTo (V c main_v101) (V c main_v100) (t.val + 1) := by
  funext i
  obtain ⟨n, j, rfl⟩ : ∃ (n : Fin 512) (j : Fin 300), i = ix2 n j := ⟨i 0, i 1, eq_ix2 i⟩
  rw [k5_pay2_apply, poolUpTo_succ _ _ _ (lt25 t), hacc]
  refine congrArg (HAdd.hAdd _) (Finset.sum_congr (Finset.filter_congr fun r _ => ?_) fun r _ => hblk_apply V c t r j)
  rw [idblk_apply V c t r (0 : Fin 1)]

/-- By induction on the point, starting from the zero fill. -/
theorem acc_eq (c : Dev nD) : ∀ (n : ℕ) (hn : n < cfg5.N),
    ((outsAt5 V c n hn).2 : Vec Ideal S512x300 .f32) = poolUpTo (V c main_v101) (V c main_v100) (n + 1)
  | 0, hn => step_eq V c ⟨0, hn⟩ _ (funext fun i => by
      obtain ⟨p, q, rfl⟩ : ∃ (p : Fin 512) (q : Fin 300), i = ix2 p q := ⟨i 0, i 1, eq_ix2 i⟩
      rw [k5_pay1_apply]
      exact (poolUpTo_zero _ _ _).symm)
  | n + 1, hn => by
    have hN : n + 1 < 25 := lt_of_lt_of_eq hn N_5
    refine Eq.trans ?_ (step_eq V c ⟨n + 1, hn⟩ _ (acc_eq c n (Nat.lt_of_succ_lt hn)))
    rw [outsAt5, if_neg (by omega)]
    split <;> rfl

abbrev t24 : Fin cfg5.N := ⟨24, (by decide : 24 < grid5.N)⟩

/-- After the last point all 25 tiles are summed. -/
theorem flushed5_eq (c : Dev nD) (t : Fin cfg5.N) (hf : (cfg5.win 2).flush t = true) :
    (dat5 (F := Ideal) V c).flushed 2 t
      = ((cfg5.win 2).blk t).view.read (Elt Ideal) (Cert.Spec.pool (V c main_v101) (V c main_v100)) := by
  obtain rfl : t = t24 := Fin.ext (show t.val = 24 by have := (flush5_2 t).mp hf; have := lt25 t; omega)
  show (cfg5.win 2).cut (grid5.coords t24) ((dat5 (F := Ideal) V c).after 2 t24) = _
  rw [after5_2, show (outsAt5 V c t24.val t24.isLt).1 = (outsAt5 V c 24 t24.isLt).2 from rfl, acc_eq V c 24 t24.isLt, poolUpTo_all]
  have hz' : (fun a => win5_2.index t24 a * main_v102.ty.shape.size a) = fun _ => 0 := funext fun a => by fin_cases a <;> decide +kernel
  exact (Memref.read_access_unit_zero (Elt Ideal) main_v102 hz' (fun a => by rw [congrFun hz' a]; simp) _).symm

theorem arr5 (c : Dev nD) :
    (dat5 (F := Ideal) V c).arrAt 2 cfg5.N = Cert.Spec.pool (V c main_v101) (V c main_v100) :=
  (dat5 (F := Ideal) V c).arrAt_eq_of_cover 2 _ (flushed5_eq V c) fun i =>
    ⟨t24, (flush5_2 t24).mpr rfl, by
      show i ∈ ((View.whole main_v102).slice (win5_2.rect t24)).set
      rw [View.set_slice_whole, Rect.mem_set_unit]
      intro a
      have h := (i a).isLt
      fin_cases a <;> exact ⟨Nat.zero_le _, h⟩⟩

end Cert.Val

end
-- ==== Proof.Val.ClsPay.lean ====
import proofs.«403831_j9380208574710_1_alg».proof.Proof.Gen.KernelIdeal.Skeleton
import proofs.«403831_j9380208574710_1_alg».proof.Proof.Spec
import Idealize.ShloMosaic.Lib.StackMember
import Idealize.ShloMosaic.Lib.ValueLayout

noncomputable section

namespace Cert.Val

open Idealize.ShloMosaic Idealize.ShloMosaic.ValueIdx
open Cert.KernelIdeal Cert.KernelIdeal.Gen

/-- Summing over axis 0 at column `q` runs over the entries (r, q). -/
theorem colsum (src : FVec Ideal S512x300 .f32) (q : Fin 300) :
    multiReduction (F := Ideal) .add [0] S300 src 0x00000000#32 reduces_S512x300_S300 (.inl rfl) rfl (ix1 q)
      = ∑ r : Fin 512, src (ix2 r q) :=
  (Ideal.multiReduction_add_single src 0x00000000#32 reduces_S512x300_S300 (.inl rfl) rfl (ix1 q)).trans
    (Finset.sum_congr rfl fun _ _ => congrArg src (funext fun c => Fin.ext (match c with | ⟨0, _⟩ => rfl | ⟨1, _⟩ => rfl)))

/-- Into the zero accumulator a plain product is the host's, whose entry (r, k) sums the entries' products. -/
theorem mm {M K N : ℕ} (A : FVec Ideal ⟨2, ![M, K]⟩ .bf16) (B : FVec Ideal ⟨2, ![K, N]⟩ .bf16) (r : Fin M) (k : Fin N) :
    matmul (F := Ideal) (DotDims.plain M K N) none A B (constant (F := Ideal) ⟨2, ![M, N]⟩ .f32 0x00000000#32) (ix2 r k)
      = ∑ a : Fin K, A (ix2 r a) * B (ix2 a k) :=
  (congrFun (matmul_zero_eq_dotGeneral _ none A B) (ix2 r k)).trans (StackMember.dotGeneral_plain_apply none A B r k)

variable (xa : Vec Ideal S512x300 .f32) (xb : Vec Ideal S300x300 .f32) (xc : Vec Ideal S1x300 .f32) (z : FVec Ideal S512x300 .f32)
  (mu var : FVec Ideal S1x300 .f32) (xd xe : Vec Ideal S1x300 .f32) (xf : Vec Ideal S300x10 .f32) (xg : Vec Ideal S1x10 .f32)
  (r : Fin 512) (k : Fin 300)

def zK : FVec Ideal S512x300 .f32 :=
  addf (matmul dot_S512x300_S300x300_S512x300_1_0_0_1_n_n none (truncf .bf16 (shapeCast S512x300 xa shapeCasts_S512x300_S512x300) bitsLt_bf16_f32)
      (truncf .bf16 xb bitsLt_bf16_f32) (constant S512x300 .f32 0x00000000#32))
    (broadcastTo S512x300 (shapeCast S1x300 xc shapeCasts_S1x300_S1x300) broadcasts_S1x300_S512x300)

def muK : FVec Ideal S1x300 .f32 :=
  divf (shapeCast S1x300 (multiReduction .add [0] S300 z 0x00000000#32 reduces_S512x300_S300 (.inl rfl) rfl) shapeCasts_S300_S1x300)
    (broadcast S1x300 (Scalar.ofBits .f32 0x44000000#32))

def varK : FVec Ideal S1x300 .f32 :=
  divf (shapeCast S1x300 (multiReduction .add [0] S300
      (mulf (subf z (broadcastTo S512x300 mu broadcasts_S1x300_S512x300)) (subf z (broadcastTo S512x300 mu broadcasts_S1x300_S512x300)))
      0x00000000#32 reduces_S512x300_S300 (.inl rfl) rfl) shapeCasts_S300_S1x300)
    (broadcast S1x300 (Scalar.ofBits .f32 0x44000000#32))

def actK : FVec Ideal S512x300 .f32 :=
  maximumf (addf (mulf (mulf (subf z (broadcastTo S512x300 mu broadcasts_S1x300_S512x300))
        (broadcastTo S512x300 (rsqrt (addf var (broadcast S1x300 (Scalar.ofBits .f32 0x3727C5AC#32)))) broadcasts_S1x300_S512x300))
        (broadcastTo S512x300 (shapeCast S1x300 xd shapeCasts_S1x300_S1x300) broadcasts_S1x300_S512x300))
      (broadcastTo S512x300 (shapeCast S1x300 xe shapeCasts_S1x300_S1x300) broadcasts_S1x300_S512x300))
    (broadcast S512x300 (Scalar.ofBits .f32 0x00000000#32))

theorem zK_apply :
    zK xa xb xc (ix2 r k) = Cert.Spec.clsZ xa xb xc r k := by
  unfold zK Cert.Spec.clsZ
  rw [shapeCast_self, shapeCast_self]
  exact congrArg₂ (· + ·) (mm _ _ r k) (broadcastTo_1b_ab_apply xc broadcasts_S1x300_S512x300 r k)

theorem muK_apply :
    muK z (ix2 (0 : Fin 1) k) = Ideal.div (∑ r : Fin 512, z (ix2 r k)) Cert.Spec.nGraphs :=
  congrArg (Ideal.div · Cert.Spec.nGraphs) ((shapeCast_a_1a_apply _ shapeCasts_S300_S1x300 (0 : Fin 1) k).trans (colsum z k))

theorem varK_apply :
    varK z mu (ix2 (0 : Fin 1) k)
      = Ideal.div (∑ r : Fin 512, (z (ix2 r k) - mu (ix2 (0 : Fin 1) k)) * (z (ix2 r k) - mu (ix2 (0 : Fin 1) k))) Cert.Spec.nGraphs :=
  congrArg (Ideal.div · Cert.Spec.nGraphs) ((shapeCast_a_1a_apply _ shapeCasts_S300_S1x300 (0 : Fin 1) k).trans ((colsum _ k).trans
    (Finset.sum_congr rfl fun r _ => by rw [mulf_apply, subf_apply, broadcastTo_1b_ab_apply])))

theorem actK_apply :
    actK z mu var xd xe (ix2 r k)
      = max ((z (ix2 r k) - mu (ix2 (0 : Fin 1) k)) * Ideal.rsqrt (var (ix2 (0 : Fin 1) k) + Cert.Spec.varEps) * xd (ix2 (0 : Fin 1) k)
          + xe (ix2 (0 : Fin 1) k)) 0 := by
  unfold actK
  rw [shapeCast_self, shapeCast_self]
  simp only [maximumf_apply, addf_apply, mulf_apply, subf_apply, broadcastTo_1b_ab_apply]
  exact congrArg (max _) Ideal.ofBits_zero_f32

/-- Stage by stage the normalised activation is the specification's, entry by entry. -/
theorem k6_pay2_apply :
    k6_pay2 (F := Ideal) xa xb xc xd xe (ix2 r k) = Cert.Spec.clsAct xa xb xc xd xe r k := by
  show actK (zK xa xb xc) (muK (zK xa xb xc)) (varK (zK xa xb xc) (muK (zK xa xb xc))) xd xe (ix2 r k) = _
  rw [actK_apply, varK_apply, muK_apply]
  simp only [zK_apply]
  rfl

/-- Hence the last linear map of it is the specification's classifier. -/
theorem k6_apply (j : Fin 10) :
    k6_pay1 (F := Ideal) (k6_pay2 (F := Ideal) xa xb xc xd xe) xf xg (ix2 r j) = Cert.Spec.cls xa xb xc xd xe xf xg (ix2 r j) := by
  unfold k6_pay1 Cert.Spec.cls
  rw [shapeCast_self]
  exact congrArg₂ (· + ·) ((mm _ _ r j).trans (Finset.sum_congr rfl fun k _ => congrArg (· * xf (ix2 k j)) (k6_pay2_apply xa xb xc xd xe r k)))
    (broadcastTo_1b_ab_apply xg broadcasts_S1x10_S512x10 r j)

end Cert.Val

end
-- ==== Proof.Val.ClsArr.lean ====
import proofs.«403831_j9380208574710_1_alg».proof.Proof.KI.Cls
import proofs.«403831_j9380208574710_1_alg».proof.Proof.Val.ClsPay

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz6 : (![0, 0] : Fin 2 → Nat) = fun _ => 0 := funext fun a => by fin_cases a <;> rfl

/-- Entry by entry the stored array is the specification's classifier of the seven blocks. -/
theorem out6_7_eq (xa : Vec Ideal S512x300 .f32) (xb : Vec Ideal S300x300 .f32) (xc xd xe : Vec Ideal S1x300 .f32)
    (xf : Vec Ideal S300x10 .f32) (xg : Vec Ideal S1x10 .f32) :
    out6_7 (F := Ideal) xa xb xc xd xe xf xg = Cert.Spec.cls xa xb xc xd xe xf xg := by
  unfold out6_7
  rw [View.canon_unit_zero hz6]
  simp only [View.ld_unit_zero (S := S512x300) hz6, View.ld_unit_zero (S := S300x300) hz6, View.ld_unit_zero (S := S1x300) hz6,
    View.ld_unit_zero (S := S300x10) hz6, View.ld_unit_zero (S := S1x10) hz6]
  funext j
  obtain ⟨r, q, rfl⟩ : ∃ (r : Fin 512) (q : Fin 10), j = ix2 r q := ⟨j 0, j 1, eq_ix2 j⟩
  exact k6_apply _ _ _ _ _ _ _ r q

theorem arr6 (c : Dev nD) :
    (dat6 (F := Ideal) V c).arrAt 7 cfg6.N = Cert.Spec.cls (V c main_v102) (V c main_arg9) (V c main_v103) (V c main_v104) (V c main_v105) (V c main_arg13) (V c main_v106) :=
  (dat6 (F := Ideal) V c).arrAt_eq_of_cover 7 _ (fun t _ => by
    obtain rfl := fin_N6 t
    refine Eq.trans ?_ (Memref.read_access_unit_zero (Elt Ideal) main_v107 (funext fun a => by fin_cases a <;> decide) _ _).symm
    show (cfg6.win 7).cut (grid6.coords t6_0) ((dat6 (F := Ideal) V c).after 7 t6_0) = _
    rw [after6_7, out6_7_eq]
    refine (show ∀ X Y : Vec Ideal S512x10 .f32, X = Y → (cfg6.win 7).cut (grid6.coords t6_0) X = Y from fun _ _ h => h) _ _ ?_
    congr 1 <;> exact Memref.read_access_unit_zero (Elt Ideal) _ (funext fun a => by fin_cases a <;> decide) _ _) fun i =>
    ⟨t6_0, flush6_7 t6_0, by
      show i ∈ ((View.whole main_v107).slice (win6_7.rect t6_0)).set
      rw [View.set_slice_whole, Rect.mem_set_unit]
      intro a
      have h := (i a).isLt
      fin_cases a <;> exact ⟨Nat.zero_le _, h⟩⟩

end Cert.Val

end
-- ==== Proof.Val.KerValue.lean ====
import proofs.«403831_j9380208574710_1_alg».proof.Proof.KI.Run
import proofs.«403831_j9380208574710_1_alg».proof.Proof.Val.KerModel
import proofs.«403831_j9380208574710_1_alg».proof.Proof.Val.HostRead
import proofs.«403831_j9380208574710_1_alg».proof.Proof.Val.MlpArr0
import proofs.«403831_j9380208574710_1_alg».proof.Proof.Val.MlpArr1
import proofs.«403831_j9380208574710_1_alg».proof.Proof.Val.MlpArr2
import proofs.«403831_j9380208574710_1_alg».proof.Proof.Val.MlpArr3
import proofs.«403831_j9380208574710_1_alg».proof.Proof.Val.MlpArr4
import proofs.«403831_j9380208574710_1_alg».proof.Proof.Val.PoolArr
import proofs.«403831_j9380208574710_1_alg».proof.Proof.Val.ClsArr
import proofs.«403831_j9380208574710_1_alg».proof.Proof.Spec

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/- Each region's output array is made of the blocks its points left, which together are the specification's function of the
   arrays the region finds; and those arrays are the host operations' terms of the arguments and of the region before. -/
variable (m : (ℓ : Loc nD τ sig) → Buf (Elt Ideal) ℓ) (outs : Gen.Outs (F := Ideal))

/-- An array as launched on core `c`. -/
abbrev argAt (c : Dev nD) (b : Ref sig .tc) := m ((c : Thread nD τ).loc b)

theorem stage0 (hok : OutsOk m outs) (c : Dev nD) :
    outs 2 main_v16 c = kerLayer0 (argAt m c main_arg0) (argAt m c main_arg1) (argAt m c main_arg2) (argAt m c main_arg3) (argAt m c main_arg4) (argAt m c main_arg15) := by
  refine (hok.h0 c).trans ((arr0 (E0 m) c).trans ?_)
  show Cert.Spec.mlp128 (Gen.V1 m c main_arg0) (Gen.V1 m c main_v13) (Gen.V1 m c main_arg1) (Gen.V1 m c main_v14) (Gen.V1 m c main_arg3) (Gen.V1 m c main_v15) = _
  rw [V1_main_arg0, V1_main_v13, V1_main_arg1, V1_main_v14, V1_main_arg3, V1_main_v15]
  unfold kerLayer0
  rfl

theorem stage1 (hok : OutsOk m outs) (c : Dev nD) :
    outs 4 main_v37 c = kerLayerN ![0, 0, 0] slices_S4x300x300_S1x300x300_0_0_0 ![0, 0] slices_S4x300_S1x300_0_0 (outs 2 main_v16 c) (argAt m c main_arg5) (argAt m c main_arg6) (argAt m c main_arg7) (argAt m c main_arg8) (argAt m c main_arg15) := by
  refine (hok.h1 c).trans ((arr1 (E1 m outs) c).trans ?_)
  show Cert.Spec.mlp300 (Gen.V3 m outs c main_v16) (Gen.V3 m outs c main_v34) (Gen.V3 m outs c main_v18) (Gen.V3 m outs c main_v35) (Gen.V3 m outs c main_v22) (Gen.V3 m outs c main_v36) = _
  rw [V3_main_v16, V3_main_v34, V3_main_v18, V3_main_v35, V3_main_v22, V3_main_v36]
  unfold kerLayerN
  rfl

theorem stage2 (hok : OutsOk m outs) (c : Dev nD) :
    outs 6 main_v58 c = kerLayerN ![1, 0, 0] slices_S4x300x300_S1x300x300_1_0_0 ![1, 0] slices_S4x300_S1x300_1_0 (outs 4 main_v37 c) (argAt m c main_arg5) (argAt m c main_arg6) (argAt m c main_arg7) (argAt m c main_arg8) (argAt m c main_arg15) := by
  refine (hok.h2 c).trans ((arr2 (E2 m outs) c).trans ?_)
  show Cert.Spec.mlp300 (Gen.V5 m outs c main_v37) (Gen.V5 m outs c main_v55) (Gen.V5 m outs c main_v39) (Gen.V5 m outs c main_v56) (Gen.V5 m outs c main_v43) (Gen.V5 m outs c main_v57) = _
  rw [V5_main_v37, V5_main_v55, V5_main_v39, V5_main_v56, V5_main_v43, V5_main_v57]
  unfold kerLayerN
  rfl

theorem stage3 (hok : OutsOk m outs) (c : Dev nD) :
    outs 8 main_v79 c = kerLayerN ![2, 0, 0] slices_S4x300x300_S1x300x300_2_0_0 ![2, 0] slices_S4x300_S1x300_2_0 (outs 6 main_v58 c) (argAt m c main_arg5) (argAt m c main_arg6) (argAt m c main_arg7) (argAt m c main_arg8) (argAt m c main_arg15) := by
  refine (hok.h3 c).trans ((arr3 (E3 m outs) c).trans ?_)
  show Cert.Spec.mlp300 (Gen.V7 m outs c main_v58) (Gen.V7 m outs c main_v76) (Gen.V7 m outs c main_v60) (Gen.V7 m outs c main_v77) (Gen.V7 m outs c main_v64) (Gen.V7 m outs c main_v78) = _
  rw [V7_main_v58, V7_main_v76, V7_main_v60, V7_main_v77, V7_main_v64, V7_main_v78]
  unfold kerLayerN
  rfl

theorem stage4 (hok : OutsOk m outs) (c : Dev nD) :
    outs 10 main_v100 c = kerLayerN ![3, 0, 0] slices_S4x300x300_S1x300x300_3_0_0 ![3, 0] slices_S4x300_S1x300_3_0 (outs 8 main_v79 c) (argAt m c main_arg5) (argAt m c main_arg6) (argAt m c main_arg7) (argAt m c main_arg8) (argAt m c main_arg15) := by
  refine (hok.h4 c).trans ((arr4 (E4 m outs) c).trans ?_)
  show Cert.Spec.mlp300 (Gen.V9 m outs c main_v79) (Gen.V9 m outs c main_v97) (Gen.V9 m outs c main_v81) (Gen.V9 m outs c main_v98) (Gen.V9 m outs c main_v85) (Gen.V9 m outs c main_v99) = _
  rw [V9_main_v79, V9_main_v97, V9_main_v81, V9_main_v98, V9_main_v85, V9_main_v99]
  unfold kerLayerN
  rfl

theorem stage5 (hok : OutsOk m outs) (c : Dev nD) :
    outs 12 main_v102 c = Cert.Spec.pool (shapeCast S50000x1 (argAt m c main_arg16) shapeCasts_S50000_S50000x1) (outs 10 main_v100 c) := by
  refine (hok.h5 c).trans ((arr5 (E5 m outs) c).trans ?_)
  show Cert.Spec.pool (Gen.V11 m outs c main_v101) (Gen.V11 m outs c main_v100) = _
  rw [V11_main_v101, V11_main_v100]

theorem stage6 (hok : OutsOk m outs) (c : Dev nD) :
    outs 14 main_v107 c = Cert.Spec.cls (outs 12 main_v102 c) (argAt m c main_arg9) (row300 (F := Ideal) (argAt m c main_arg10)) (row300 (F := Ideal) (argAt m c main_arg11)) (row300 (F := Ideal) (argAt m c main_arg12)) (argAt m c main_arg13) (shapeCast S1x10 (argAt m c main_arg14) shapeCasts_S10_S1x10) := by
  refine (hok.h6 c).trans ((arr6 (E6 m outs) c).trans ?_)
  show Cert.Spec.cls (Gen.V13 m outs c main_v102) (Gen.V13 m outs c main_arg9) (Gen.V13 m outs c main_v103) (Gen.V13 m outs c main_v104) (Gen.V13 m outs c main_v105) (Gen.V13 m outs c main_arg13) (Gen.V13 m outs c main_v106) = _
  rw [V13_main_v102, V13_main_arg9, V13_main_v103, V13_main_v104, V13_main_v105, V13_main_arg13, V13_main_v106]

/-- What the last region leaves in the result array is the model of the launch contents of the seventeen arguments. -/
theorem ker_value (hok : OutsOk m outs) (c : Dev nD) :
    (outs 14 main_v107 c : FVec Ideal S512x10 .f32) = kerModel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (stage6 m outs hok c).trans ?_
  unfold kerModel
  rw [stage5 m outs hok c, stage4 m outs hok c, stage3 m outs hok c, stage2 m outs hok c, stage1 m outs hok c, stage0 m outs hok c]

end Cert.Val

end
-- ==== Proof.Val.RefLayers.lean ====
import proofs.«403831_j9380208574710_1_alg».proof.ReferenceIdeal
import proofs.«403831_j9380208574710_1_alg».proof.Proof.Gen.ReferenceIdeal
import proofs.«403831_j9380208574710_1_alg».proof.Proof.Spec
import Idealize.ShloMosaic.Lib.StackMember
import Idealize.ShloMosaic.Lib.ValueLayout

noncomputable section

namespace Cert.Val

open Cert.ReferenceIdeal Cert.ReferenceIdeal.Gen Idealize.ShloMosaic Idealize.ShloMosaic.ValueIdx

/-- A vector laid out as one row keeps its entries. -/
theorem bcast_row_apply {α : Type} {n : Nat} (h : (⟨1, ![n]⟩ : Shape).BroadcastsInDim ⟨2, ![1, n]⟩ ![1])
    (x : (⟨1, ![n]⟩ : Shape).Idx → α) (u : Fin 1) (k : Fin n) :
    broadcastInDim ⟨2, ![1, n]⟩ ![1] h x (ix2 u k) = x (ix1 k) := by
  refine broadcastInDim_apply ![1] h x (ix2 u k) (ix1 k) fun a => ?_
  match a with
  | ⟨0, _⟩ =>
    show k.val = if n = 1 then 0 else k.val
    split
    · have := k.isLt; omega
    · rfl

/-- Hence reshaping a vector to one row and broadcasting it along one row give the same array. -/
theorem bias_row_of {α : Type} {n : Nat} (b : (⟨1, ![n]⟩ : Shape).Idx → α)
    (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ b hs = broadcastInDim ⟨2, ![1, n]⟩ ![1] hb b := by
  funext i
  obtain ⟨r, t, rfl⟩ : ∃ (r : Fin 1) (t : Fin n), i = ix2 r t := ⟨i 0, i 1, eq_ix2 i⟩
  exact (shapeCast_a_1a_apply b hs r t).trans (bcast_row_apply hb b r t).symm

theorem zero_splat_apply {s : Shape} (hb : S_.BroadcastsInDim s (![] : Fin 0 → Fin s.rank)) (i : s.Idx) :
    broadcastInDim s ![] hb (constant (F := Ideal) S_ .f32 0x00000000#32) i = 0 := by
  rw [broadcastInDim_apply ![] hb _ i ix0 (fun a => a.elim0)]
  exact Ideal.ofBits_zero_f32

/-- A dense layer of any input width K, entry by entry: two plain products, each followed by a row added and a clamp at zero. -/
theorem ref_layer {K : ℕ} (h agg : FVec Ideal ⟨2, ![50000, K]⟩ .f32) (w1 : FVec Ideal ⟨2, ![K, 300]⟩ .f32)
    (b1 b2 : FVec Ideal S1x300 .f32) (w2 : FVec Ideal S300x300 .f32) :
    maximumf (addf (Host.dotGeneral (F := Ideal) (DotDims.plain 50000 300 300) none (maximumf (addf (Host.dotGeneral (F := Ideal) (DotDims.plain 50000 K 300) none (addf h agg) w1) (broadcastInDim S50000x300 ![0, 1] bcast_S1x300_S50000x300_0_1 b1)) (broadcastInDim S50000x300 ![] bcast_S_S50000x300 (constant (F := Ideal) S_ .f32 0x00000000#32))) w2) (broadcastInDim S50000x300 ![0, 1] bcast_S1x300_S50000x300_0_1 b2)) (broadcastInDim S50000x300 ![] bcast_S_S50000x300 (constant (F := Ideal) S_ .f32 0x00000000#32))
      = fun i => max ((∑ k : Fin 300, max ((∑ a : Fin K, (h (ix2 (i 0) a) + agg (ix2 (i 0) a)) * w1 (ix2 a k)) + b1 (ix2 (0 : Fin 1) k)) 0 * w2 (ix2 k (i 1))) + b2 (ix2 (0 : Fin 1) (i 1))) 0 := by
  funext i
  obtain ⟨r, j, rfl⟩ : ∃ (r : Fin 50000) (j : Fin 300), i = ix2 r j := ⟨i 0, i 1, eq_ix2 i⟩
  rw [maximumf_apply, addf_apply, StackMember.dotGeneral_plain_apply, broadcastInDim_oneRow_apply, zero_splat_apply]
  refine congrArg (fun x => max (x + _) 0) (Finset.sum_congr rfl fun k _ => ?_)
  rw [maximumf_apply, addf_apply, StackMember.dotGeneral_plain_apply, broadcastInDim_oneRow_apply, zero_splat_apply]
  rfl

end Cert.Val

end
-- ==== Proof.LibRowOps.lean ====
import Idealize.ShloMosaic.PureOps.Ideal
import Idealize.ShloMosaic.Lib.ValueIdx

noncomputable section

namespace Idealize.ShloMosaic.RowOps

open Idealize.ShloMosaic Idealize.ShloMosaic.ValueIdx

/-- Rows of [E, C] updates added into an [N, C] operand, one destination word per row. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update lands on i exactly when start plus window coordinate is i's coordinate on every axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    rw [Fin.ext_iff]
    show (d.start j idx a + d.window j a).toNat = (i a).val ↔ _
    have := h a
    omega
  · rename_i h
    exact ⟨fun hf => absurd hf (by simp), fun hi => absurd (fun a => by have := (i a).isLt; have := hi a; omega) h⟩

variable {N E C w : Nat} (wf : ScatterDims.WF ⟨2, ![N, C]⟩ ⟨2, ![E, 1]⟩ ⟨2, ![E, C]⟩ [1] [0] [0] 1)
  (idx : IVec ⟨2, ![E, 1]⟩ w) (p : Fin E) (q : Fin C)

theorem rowScatter_land0 :
    (rowScatter N E C wf).start (ix2 p q) idx 0 + ((rowScatter N E C wf).window (ix2 p q) 0 : ℤ)
      = (idx (ix2 p (0 : Fin 1))).toInt := by
  have hw : (rowScatter N E C wf).window (ix2 p q) 0 = 0 := dif_neg (by simp [Shape.kept])
  have hs : (rowScatter N E C wf).start (ix2 p q) idx 0 = (idx (ix2 p (0 : Fin 1))).toInt :=
    (dif_pos (List.mem_singleton.mpr rfl)).trans (congrArg (fun k => (idx k).toInt) (funext fun b => Fin.ext (by
      match b with
      | ⟨0, _⟩ => rfl
      | ⟨1, _⟩ => rfl)))
  rw [hw, hs]
  simp

theorem rowScatter_land1 :
    (rowScatter N E C wf).start (ix2 p q) idx 1 + ((rowScatter N E C wf).window (ix2 p q) 1 : ℤ) = (q.val : ℤ) := by
  have hs : (rowScatter N E C wf).start (ix2 p q) idx 1 = 0 := dif_neg (by simp)
  have hw : (rowScatter N E C wf).window (ix2 p q) 1 = q.val := dif_pos (by simp [Shape.kept, List.mem_finRange])
  rw [hs, hw, Int.zero_add]

/-- Update (p, q) lands on (n, c) exactly when q = c and row p's word, read signed, is n. -/
theorem rowScatter_resultIdx?_eq_some_iff (n : Fin N) (c : Fin C) :
    (rowScatter N E C wf).resultIdx? (ix2 p q) idx = some (ix2 n c)
      ↔ (q = c ∧ (idx (ix2 p (0 : Fin 1))).toInt = (n.val : ℤ)) := by
  rw [resultIdx?_eq_some_iff, Fin.forall_fin_two, rowScatter_land0, rowScatter_land1]
  exact ⟨fun h => ⟨Fin.ext (Int.ofNat_inj.1 h.2), h.1⟩, fun h => ⟨h.2, congrArg (fun x : Fin C => (x.val : ℤ)) h.1⟩⟩

/-- Entry (n, c) gains column c of the update rows whose word is n; a word outside [0, N) matches no n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  rw [Finset.sum_filter, sum_idx2, Finset.sum_filter]
  refine Finset.sum_congr rfl fun e _ => ?_
  simp only [rowScatter_resultIdx?_eq_some_iff]
  by_cases h : (idx (ix2 e (0 : Fin 1))).toInt = (n.val : ℤ) <;> simp [h]

end Idealize.ShloMosaic.RowOps

end
-- ==== Proof.Val.PoolRef.lean ====
import proofs.«403831_j9380208574710_1_alg».proof.ReferenceIdeal
import proofs.«403831_j9380208574710_1_alg».proof.Proof.Gen.ReferenceIdeal
import proofs.«403831_j9380208574710_1_alg».proof.Proof.Spec
import proofs.«403831_j9380208574710_1_alg».proof.Proof.LibRowOps
import Idealize.ShloMosaic.PureOps.Ideal.Laws

noncomputable section

namespace Cert.Val

open Cert.ReferenceIdeal Cert.ReferenceIdeal.Gen Idealize.ShloMosaic Idealize.ShloMosaic.ValueIdx
open Idealize.ShloMosaic.RowOps

/-- Written as a reshape or as a broadcast along axis 0, the column's entry (e, 0) is word e. -/
theorem ids_col (ids : IVec S50000 32) (hs : S50000.ShapeCasts S50000x1)
    (hb : S50000.BroadcastsInDim S50000x1 (![0] : Fin 1 → Fin S50000x1.rank)) :
    (shapeCast S50000x1 ids hs : IVec S50000x1 32) = broadcastInDim S50000x1 ![0] hb ids := by
  funext i
  refine congrArg ids ((Shape.reshapeEquiv_eq_of_rowMajor (y := ix1 (i 0)) _ ?_).trans (funext fun a => match a with | ⟨0, _⟩ => rfl))
  rw [Shape.rowMajor_val_one, Shape.rowMajor_val_two]
  have : (i 1).val < 1 := (i 1).isLt
  show (i 0).val = (i 0).val * 1 + (i 1).val
  omega

/-- The accumulating row scatter of h into zeros sums, at (n, j), the rows whose word reads n. -/
theorem ref_pool (ids : IVec S50000 32) (h : FVec Ideal S50000x300 .f32) :
    Host.scatterAdd (F := Ideal) scatter_S512x300_S50000x1_S50000x300_1_0_0_1 (broadcastInDim S512x300 ![] bcast_S_S512x300 (constant (F := Ideal) S_ .f32 0x00000000#32)) (broadcastInDim S50000x1 ![0] bcast_S50000_S50000x1_0 ids) h
      = Cert.Spec.pool (broadcastInDim S50000x1 ![0] bcast_S50000_S50000x1_0 ids) h := by
  funext i
  obtain ⟨n, j, rfl⟩ : ∃ (n : Fin 512) (j : Fin 300), i = ix2 n j := ⟨i 0, i 1, eq_ix2 i⟩
  refine (rowScatterAdd_apply scatter_S512x300_S50000x1_S50000x300_1_0_0_1_wf _ _ h n j).trans ?_
  rw [show (broadcastInDim S512x300 ![] bcast_S_S512x300 (constant (F := Ideal) S_ .f32 0x00000000#32)
      : FVec Ideal S512x300 .f32) (ix2 n j) = 0 from Ideal.ofBits_zero_f32, zero_add]
  rfl

end Cert.Val

end
-- ==== Proof.Val.ClsRef.lean ====
import proofs.«403831_j9380208574710_1_alg».proof.ReferenceIdeal
import proofs.«403831_j9380208574710_1_alg».proof.Proof.Gen.ReferenceIdeal
import proofs.«403831_j9380208574710_1_alg».proof.Proof.Val.RefLayers
import Idealize.ShloMosaic.Lib.IdealHost

noncomputable section

namespace Cert.Val

open Idealize.ShloMosaic Idealize.ShloMosaic.ValueIdx
open Cert.ReferenceIdeal Cert.ReferenceIdeal.Gen

/-- A vector as a row, repeated down the 512 rows; a column sum from zero; a word repeated along 300 entries. -/
abbrev refRows (v : FVec Ideal S300 .f32) : FVec Ideal S512x300 .f32 :=
  broadcastInDim S512x300 ![0, 1] bcast_S1x300_S512x300_0_1 (broadcastInDim S1x300 ![1] bcast_S300_S1x300_1 v)
abbrev refSum (x : FVec Ideal S512x300 .f32) : FVec Ideal S300 .f32 :=
  Host.reduceAdd (F := Ideal) x (constant (F := Ideal) S_ .f32 0x00000000#32) reducesTo_S512x300_S300_d0 h_S_
abbrev refSplat (w : BitVec 32) : FVec Ideal S300 .f32 := broadcastInDim S300 ![] bcast_S_S300 (constant (F := Ideal) S_ .f32 w)

theorem refSplat_apply (w : BitVec 32) (k : Fin 300) : refSplat w (ix1 k) = Ideal.ofBits .f32 w :=
  broadcastInDim_scalar_apply bcast_S_S300 _ (ix1 k)

/-- Summing over axis 0 from zero at column `q` runs over the entries (r, q). -/
theorem ref_colsum (x : FVec Ideal S512x300 .f32) (q : Fin 300) :
    refSum x (ix1 q) = ∑ r : Fin 512, x (ix2 r q) := by
  have h : S512x300.Reduces [0] S300 := by decide
  refine (Ideal.hostReduceAdd_single reducesTo_S512x300_S300_d0 h x _ (ix1 q)).trans ?_
  rw [constant_apply, Ideal.ofBits_zero_f32, zero_add]
  exact Finset.sum_congr rfl fun _ _ => congrArg x (funext fun c => Fin.ext (match c with | ⟨0, _⟩ => rfl | ⟨1, _⟩ => rfl))

variable (g : FVec Ideal S512x300 .f32) (wc1 : FVec Ideal S300x300 .f32) (bc1 : FVec Ideal S300 .f32) (z : FVec Ideal S512x300 .f32)
  (mu : FVec Ideal S300 .f32) (dev : FVec Ideal S512x300 .f32) (gam bet : FVec Ideal S300 .f32) (wc2 : FVec Ideal S300x10 .f32)
  (bc2 : FVec Ideal S10 .f32) (r : Fin 512) (k : Fin 300)

/-- The tail in stages: the affine map Z, its column means, the deviations, the normalised activation, the last linear map. -/
def refZ : FVec Ideal S512x300 .f32 :=
  addf (Host.dotGeneral (F := Ideal) dot_S512x300_S300x300_S512x300_1_0_0_1_n_n none g wc1) (refRows bc1)

def refMu : FVec Ideal S300 .f32 :=
  Host.divf (F := Ideal) (refSum z) (refSplat 0x44000000#32)

def refDev : FVec Ideal S512x300 .f32 :=
  subf z (refRows mu)

def refAct : FVec Ideal S512x300 .f32 :=
  maximumf (addf (mulf (mulf (subf z (refRows mu)) (refRows (Host.rsqrt (F := Ideal) (addf (Host.divf (F := Ideal) (refSum (mulf dev dev)) (refSplat 0x44000000#32)) (refSplat 0x3727C5AC#32))))) (refRows gam)) (refRows bet)) (broadcastInDim S512x300 ![] bcast_S_S512x300 (constant (F := Ideal) S_ .f32 0x00000000#32))

def refTail : FVec Ideal S512x10 .f32 :=
  addf (Host.dotGeneral (F := Ideal) dot_S512x300_S300x10_S512x10_1_0_0_1_n_n none (refAct z mu dev gam bet) wc2)
    (broadcastInDim S512x10 ![0, 1] bcast_S1x10_S512x10_0_1 (broadcastInDim S1x10 ![1] bcast_S10_S1x10_1 bc2))

/-- A row broadcast down the rows reads its column's entry. -/
theorem refRows_apply : refRows mu (ix2 r k) = mu (ix1 k) :=
  (broadcastInDim_oneRow_apply bcast_S1x300_S512x300_0_1 _ r k).trans (bcast_row_apply bcast_S300_S1x300_1 mu (0 : Fin 1) k)

theorem refZ_apply :
    refZ g wc1 bc1 (ix2 r k) = Cert.Spec.clsZ g wc1 (broadcastInDim S1x300 ![1] bcast_S300_S1x300_1 bc1) r k :=
  congrArg₂ (· + ·) (StackMember.dotGeneral_plain_apply none g wc1 r k) (broadcastInDim_oneRow_apply bcast_S1x300_S512x300_0_1 _ r k)

theorem refMu_apply :
    refMu z (ix1 k) = Ideal.div (∑ r : Fin 512, z (ix2 r k)) Cert.Spec.nGraphs :=
  congrArg₂ Ideal.div (ref_colsum z k) (refSplat_apply _ k)

theorem refDev_apply :
    refDev z mu (ix2 r k) = z (ix2 r k) - mu (ix1 k) :=
  congrArg (z (ix2 r k) - ·) (refRows_apply mu r k)

theorem refAct_apply :
    refAct z mu dev gam bet (ix2 r k)
      = max ((z (ix2 r k) - mu (ix1 k))
            * Ideal.rsqrt (Ideal.div (∑ r' : Fin 512, dev (ix2 r' k) * dev (ix2 r' k)) Cert.Spec.nGraphs + Cert.Spec.varEps)
            * gam (ix1 k) + bet (ix1 k)) 0 := by
  unfold refAct
  simp only [maximumf_apply, addf_apply, mulf_apply, subf_apply]
  rw [refRows_apply, refRows_apply, refRows_apply, refRows_apply, broadcastInDim_scalar_apply]
  show max (_ * Ideal.rsqrt (Ideal.div (refSum (mulf dev dev) (ix1 k)) (refSplat 0x44000000#32 (ix1 k)) + refSplat 0x3727C5AC#32 (ix1 k)) * _ + _)
      (Ideal.ofBits .f32 0x00000000#32) = _
  rw [ref_colsum, refSplat_apply, refSplat_apply, Ideal.ofBits_zero_f32]
  rfl

/-- Each stage read at an index is the specification's, so the tail is the specification's classifier. -/
theorem ref_cls :
    refTail (refZ g wc1 bc1) (refMu (refZ g wc1 bc1)) (refDev (refZ g wc1 bc1) (refMu (refZ g wc1 bc1))) gam bet wc2 bc2
      = Cert.Spec.cls g wc1 (broadcastInDim S1x300 ![1] bcast_S300_S1x300_1 bc1) (broadcastInDim S1x300 ![1] bcast_S300_S1x300_1 gam) (broadcastInDim S1x300 ![1] bcast_S300_S1x300_1 bet) wc2 (broadcastInDim S1x10 ![1] bcast_S10_S1x10_1 bc2) := by
  funext i
  obtain ⟨r, j, rfl⟩ : ∃ (r : Fin 512) (j : Fin 10), i = ix2 r j := ⟨i 0, i 1, eq_ix2 i⟩
  refine (congrArg₂ (· + ·) (StackMember.dotGeneral_plain_apply none _ wc2 r j) (broadcastInDim_oneRow_apply bcast_S1x10_S512x10_0_1 _ r j)).trans ?_
  unfold Cert.Spec.cls
  refine congrArg (· + _) (Finset.sum_congr rfl fun k _ => congrArg (· * wc2 (ix2 k j)) ?_)
  rw [refAct_apply]
  unfold Cert.Spec.clsAct Cert.Spec.clsVar Cert.Spec.clsMu
  simp only [refDev_apply, refMu_apply, refZ_apply]
  rw [bcast_row_apply bcast_S300_S1x300_1 gam (0 : Fin 1) k, bcast_row_apply bcast_S300_S1x300_1 bet (0 : Fin 1) k]

end Cert.Val

end
-- ==== Proof.Val.RefValue.lean ====
import proofs.«403831_j9380208574710_1_alg».proof.ReferenceIdeal
import proofs.«403831_j9380208574710_1_alg».proof.Proof.Gen.ReferenceIdeal
import proofs.«403831_j9380208574710_1_alg».proof.Proof.Gen.ReferenceIdeal.Run
import proofs.«403831_j9380208574710_1_alg».proof.Proof.Spec
import proofs.«403831_j9380208574710_1_alg».proof.Proof.Val.RefLayers
import proofs.«403831_j9380208574710_1_alg».proof.Proof.Val.PoolRef
import proofs.«403831_j9380208574710_1_alg».proof.Proof.Val.ClsRef

noncomputable section

namespace Cert.Val

open Cert.ReferenceIdeal Cert.ReferenceIdeal.Gen Idealize.ShloMosaic Idealize.ShloMosaic.ValueIdx
open Cert.ReferenceIdeal.Value Idealize.ShloMosaic.TcCoe Idealize.SL.Sem Idealize.ShloMosaic.StableHlo

namespace Ref

def edgeSrc (ei : IVec S2x800000 32) : IVec S800000 32 :=
  shapeCast S800000 (extractStridedSlice S1x800000 ![0, 0] ei slices_S2x800000_S1x800000_0_0) shapeCasts_S1x800000_S800000
def edgeDst (ei : IVec S2x800000 32) : IVec S800000 32 :=
  shapeCast S800000 (extractStridedSlice S1x800000 ![1, 0] ei slices_S2x800000_S1x800000_1_0) shapeCasts_S1x800000_S800000
def srcIdx (ei : IVec S2x800000 32) : IVec S800000x1 32 :=
  broadcastInDim S800000x1 ![0] bcast_S800000_S800000x1_0 (select (cmpi .slt (edgeSrc ei) (broadcastInDim S800000 ![] bcast_S_S800000 (constantI S_ 32 0#32))) (addi (edgeSrc ei) (broadcastInDim S800000 ![] bcast_S_S800000 (constantI S_ 32 50000#32))) (edgeSrc ei))
def dstIdx (ei : IVec S2x800000 32) : IVec S800000x1 32 :=
  broadcastInDim S800000x1 ![0] bcast_S800000_S800000x1_0 (edgeDst ei)
def agg128 (x : FVec Ideal S50000x128 .f32) (ei : IVec S2x800000 32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (dstIdx ei) (Host.gather gather_S50000x128_S800000x1_S800000x128_1_0_n_n_0_1_1128 x (srcIdx ei))
def agg300 (h : FVec Ideal S50000x300 .f32) (ei : IVec S2x800000 32) : FVec Ideal S50000x300 .f32 :=
  Host.scatterAdd (F := Ideal) scatter_S50000x300_S800000x1_S800000x300_1_0_0_1 (broadcastInDim S50000x300 ![] bcast_S_S50000x300 (constant (F := Ideal) S_ .f32 0x00000000#32)) (dstIdx ei) (Host.gather gather_S50000x300_S800000x1_S800000x300_1_0_n_n_0_1_1300 h (srcIdx ei))
/-- Member off 0 of a stack of four [300, 300] matrices. -/
def wSliceAt (off : Fin 3 → ℕ) (hs : S4x300x300.Slices off S1x300x300) (w : FVec Ideal S4x300x300 .f32) : FVec Ideal S300x300 .f32 :=
  shapeCast S300x300 (extractStridedSlice S1x300x300 off w hs) shapeCasts_S1x300x300_S300x300
/-- Row off 0 of a stack of four [300] vectors. -/
def bSliceAt (off : Fin 2 → ℕ) (hs : S4x300.Slices off S1x300) (b : FVec Ideal S4x300 .f32) : FVec Ideal S300 .f32 :=
  shapeCast S300 (extractStridedSlice S1x300 off b hs) shapeCasts_S1x300_S300
def layer0 (x : FVec Ideal S50000x128 .f32) (w1 : FVec Ideal S128x300 .f32) (b1 : FVec Ideal S300 .f32)
    (w2 : FVec Ideal S300x300 .f32) (b2 : FVec Ideal S300 .f32) (ei : IVec S2x800000 32) : FVec Ideal S50000x300 .f32 :=
  Cert.Spec.mlp128 x (agg128 x ei) w1 (broadcastInDim S1x300 ![1] bcast_S300_S1x300_1 b1) w2 (broadcastInDim S1x300 ![1] bcast_S300_S1x300_1 b2)
def layerN (h : FVec Ideal S50000x300 .f32) (w1 : FVec Ideal S300x300 .f32) (b1 : FVec Ideal S300 .f32)
    (w2 : FVec Ideal S300x300 .f32) (b2 : FVec Ideal S300 .f32) (ei : IVec S2x800000 32) : FVec Ideal S50000x300 .f32 :=
  Cert.Spec.mlp300 h (agg300 h ei) w1 (broadcastInDim S1x300 ![1] bcast_S300_S1x300_1 b1) w2 (broadcastInDim S1x300 ![1] bcast_S300_S1x300_1 b2)
/-- A later layer with its weights and biases taken from the stacked arguments at the given offsets. -/
def layerAt (off3 : Fin 3 → ℕ) (hs3 : S4x300x300.Slices off3 S1x300x300) (off2 : Fin 2 → ℕ) (hs2 : S4x300.Slices off2 S1x300)
    (h : FVec Ideal S50000x300 .f32) (a5 : FVec Ideal S4x300x300 .f32) (a6 : FVec Ideal S4x300 .f32)
    (a7 : FVec Ideal S4x300x300 .f32) (a8 : FVec Ideal S4x300 .f32) (ei : IVec S2x800000 32) : FVec Ideal S50000x300 .f32 :=
  layerN h (wSliceAt off3 hs3 a5) (bSliceAt off2 hs2 a6) (wSliceAt off3 hs3 a7) (bSliceAt off2 hs2 a8) ei
/-- Five layers, the per-graph sums, the classifier, of the seventeen argument arrays in order. -/
def model (a0 : FVec Ideal S50000x128 .f32) (a1 : FVec Ideal S128x300 .f32) (a2 : FVec Ideal S300 .f32) (a3 : FVec Ideal S300x300 .f32) (a4 : FVec Ideal S300 .f32) (a5 : FVec Ideal S4x300x300 .f32) (a6 : FVec Ideal S4x300 .f32) (a7 : FVec Ideal S4x300x300 .f32) (a8 : FVec Ideal S4x300 .f32) (a9 : FVec Ideal S300x300 .f32) (a10 : FVec Ideal S300 .f32) (a11 : FVec Ideal S300 .f32) (a12 : FVec Ideal S300 .f32) (a13 : FVec Ideal S300x10 .f32) (a14 : FVec Ideal S10 .f32) (a15 : IVec S2x800000 32) (a16 : IVec S50000 32) : FVec Ideal S512x10 .f32 :=
  Cert.Spec.cls
    (Cert.Spec.pool (broadcastInDim S50000x1 ![0] bcast_S50000_S50000x1_0 a16)
      (layerAt ![3, 0, 0] slices_S4x300x300_S1x300x300_3_0_0 ![3, 0] slices_S4x300_S1x300_3_0 (layerAt ![2, 0, 0] slices_S4x300x300_S1x300x300_2_0_0 ![2, 0] slices_S4x300_S1x300_2_0 (layerAt ![1, 0, 0] slices_S4x300x300_S1x300x300_1_0_0 ![1, 0] slices_S4x300_S1x300_1_0 (layerAt ![0, 0, 0] slices_S4x300x300_S1x300x300_0_0_0 ![0, 0] slices_S4x300_S1x300_0_0 (layer0 a0 a1 a2 a3 a4 a15) a5 a6 a7 a8 a15) a5 a6 a7 a8 a15) a5 a6 a7 a8 a15) a5 a6 a7 a8 a15))
    a9 (broadcastInDim S1x300 ![1] bcast_S300_S1x300_1 a10) (broadcastInDim S1x300 ![1] bcast_S300_S1x300_1 a11) (broadcastInDim S1x300 ![1] bcast_S300_S1x300_1 a12) a13 (broadcastInDim S1x10 ![1] bcast_S10_S1x10_1 a14)

section Term
variable (V0 : Valuation τ sig (Elt Ideal))

/-- An array the run is launched with. -/
abbrev argOf (b : Ref sig .tc) := V0 (Proc.devRef .tc b)

set_option maxRecDepth 8192 in
theorem v26_eq : (res_main_v26 (F := Ideal) V0 : FVec Ideal S50000x300 .f32)
    = layer0 (argOf V0 main_arg0) (argOf V0 main_arg1) (argOf V0 main_arg2) (argOf V0 main_arg3) (argOf V0 main_arg4) (argOf V0 main_arg15) :=
  ref_layer ..

set_option maxRecDepth 8192 in
theorem v57_eq : (res_main_v57 (F := Ideal) V0 : FVec Ideal S50000x300 .f32)
    = layerAt ![0, 0, 0] slices_S4x300x300_S1x300x300_0_0_0 ![0, 0] slices_S4x300_S1x300_0_0 (res_main_v26 (F := Ideal) V0) (argOf V0 main_arg5) (argOf V0 main_arg6) (argOf V0 main_arg7) (argOf V0 main_arg8) (argOf V0 main_arg15) :=
  ref_layer ..

set_option maxRecDepth 8192 in
theorem v88_eq : (res_main_v88 (F := Ideal) V0 : FVec Ideal S50000x300 .f32)
    = layerAt ![1, 0, 0] slices_S4x300x300_S1x300x300_1_0_0 ![1, 0] slices_S4x300_S1x300_1_0 (res_main_v57 (F := Ideal) V0) (argOf V0 main_arg5) (argOf V0 main_arg6) (argOf V0 main_arg7) (argOf V0 main_arg8) (argOf V0 main_arg15) :=
  ref_layer ..

set_option maxRecDepth 8192 in
theorem v119_eq : (res_main_v119 (F := Ideal) V0 : FVec Ideal S50000x300 .f32)
    = layerAt ![2, 0, 0] slices_S4x300x300_S1x300x300_2_0_0 ![2, 0] slices_S4x300_S1x300_2_0 (res_main_v88 (F := Ideal) V0) (argOf V0 main_arg5) (argOf V0 main_arg6) (argOf V0 main_arg7) (argOf V0 main_arg8) (argOf V0 main_arg15) :=
  ref_layer ..

end Term

set_option maxRecDepth 8192 in
/-- The reference's run ends at the model of its arguments, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188) = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (by
      refine (ref_cls _ _ _ _ _ _ _).trans ?_
      refine (congrArg (Cert.Spec.cls · _ _ _ _ _ _) ((congrArg (Host.scatterAdd (F := Ideal) _ _ _) (ref_layer ..)).trans (ref_pool ..))).trans ?_
      rw [v119_eq, v88_eq, v57_eq, v26_eq]
      rfl), (h c).2⟩)
    (Cert.ReferenceIdeal.Value.run (F := Ideal) m ρ)

end Ref

end Cert.Val

end
-- ==== Proof.Val.Glue.lean ====
import proofs.«403831_j9380208574710_1_alg».proof.Proof.Val.HostRead
import proofs.«403831_j9380208574710_1_alg».proof.Proof.Val.RefValue
import proofs.«403831_j9380208574710_1_alg».proof.Proof.Val.KerModel

noncomputable section

namespace Cert.Val

open Idealize.ShloMosaic

theorem gatherCol_eq (ei : IVec Cert.ReferenceIdeal.S2x800000 32) : gatherCol (F := Ideal) (edgeSrc (F := Ideal) ei) = Ref.srcIdx ei := rfl
theorem scatterCol_eq (ei : IVec Cert.ReferenceIdeal.S2x800000 32) : scatterCol (F := Ideal) (edgeDst (F := Ideal) ei) = Ref.dstIdx ei := rfl

theorem agg128_eq (x : FVec Ideal Cert.ReferenceIdeal.S50000x128 .f32) (ei : IVec Cert.ReferenceIdeal.S2x800000 32) :
    agg128 (F := Ideal) x ei = Ref.agg128 x ei := by
  unfold agg128 aggOf128 Ref.agg128
  rw [gatherCol_eq, scatterCol_eq]
  rfl

theorem agg300_eq (h : FVec Ideal Cert.ReferenceIdeal.S50000x300 .f32) (ei : IVec Cert.ReferenceIdeal.S2x800000 32) :
    agg300 (F := Ideal) h ei = Ref.agg300 h ei := by
  unfold agg300 aggOf300 Ref.agg300
  rw [gatherCol_eq, scatterCol_eq]
  rfl

/-- A vector reshaped to one row is the vector broadcast along the columns of one row. -/
theorem row300_eq (b : FVec Ideal Cert.ReferenceIdeal.S300 .f32) :
    row300 (F := Ideal) b = broadcastInDim Cert.ReferenceIdeal.S1x300 ![1] Cert.ReferenceIdeal.Gen.bcast_S300_S1x300_1 b :=
  bias_row_of b _ _

theorem kerLayer0_eq (a0 : FVec Ideal Cert.ReferenceIdeal.S50000x128 .f32) (a1 : FVec Ideal Cert.ReferenceIdeal.S128x300 .f32) (a2 : FVec Ideal Cert.ReferenceIdeal.S300 .f32)
    (a3 : FVec Ideal Cert.ReferenceIdeal.S300x300 .f32) (a4 : FVec Ideal Cert.ReferenceIdeal.S300 .f32) (a15 : IVec Cert.ReferenceIdeal.S2x800000 32) :
    kerLayer0 a0 a1 a2 a3 a4 a15 = Ref.layer0 a0 a1 a2 a3 a4 a15 := by
  unfold kerLayer0 Ref.layer0
  rw [agg128_eq, row300_eq a2, row300_eq a4]

/-- A later layer is the same on both sides at every offset into the stacked weights and biases. -/
theorem kerLayerN_eq (off3 : Fin 3 → ℕ) (hs3 : Cert.ReferenceIdeal.S4x300x300.Slices off3 Cert.ReferenceIdeal.S1x300x300) (off2 : Fin 2 → ℕ) (hs2 : Cert.ReferenceIdeal.S4x300.Slices off2 Cert.ReferenceIdeal.S1x300)
    (h : FVec Ideal Cert.ReferenceIdeal.S50000x300 .f32) (a5 : FVec Ideal Cert.ReferenceIdeal.S4x300x300 .f32) (a6 : FVec Ideal Cert.ReferenceIdeal.S4x300 .f32)
    (a7 : FVec Ideal Cert.ReferenceIdeal.S4x300x300 .f32) (a8 : FVec Ideal Cert.ReferenceIdeal.S4x300 .f32) (a15 : IVec Cert.ReferenceIdeal.S2x800000 32) :
    kerLayerN off3 hs3 off2 hs2 h a5 a6 a7 a8 a15 = Ref.layerAt off3 hs3 off2 hs2 h a5 a6 a7 a8 a15 := by
  unfold kerLayerN Ref.layerAt Ref.layerN
  rw [agg300_eq, show biasAt (F := Ideal) off2 hs2 a6 = _ from row300_eq (Ref.bSliceAt off2 hs2 a6),
    show biasAt (F := Ideal) off2 hs2 a8 = _ from row300_eq (Ref.bSliceAt off2 hs2 a8)]
  rfl

/-- The kernel program's result, as a function of the seventeen argument arrays, is the reference program's. -/
theorem kerModel_eq (a0 : FVec Ideal Cert.ReferenceIdeal.S50000x128 .f32) (a1 : FVec Ideal Cert.ReferenceIdeal.S128x300 .f32) (a2 : FVec Ideal Cert.ReferenceIdeal.S300 .f32)
    (a3 : FVec Ideal Cert.ReferenceIdeal.S300x300 .f32) (a4 : FVec Ideal Cert.ReferenceIdeal.S300 .f32) (a5 : FVec Ideal Cert.ReferenceIdeal.S4x300x300 .f32) (a6 : FVec Ideal Cert.ReferenceIdeal.S4x300 .f32)
    (a7 : FVec Ideal Cert.ReferenceIdeal.S4x300x300 .f32) (a8 : FVec Ideal Cert.ReferenceIdeal.S4x300 .f32) (a9 : FVec Ideal Cert.ReferenceIdeal.S300x300 .f32) (a10 : FVec Ideal Cert.ReferenceIdeal.S300 .f32)
    (a11 : FVec Ideal Cert.ReferenceIdeal.S300 .f32) (a12 : FVec Ideal Cert.ReferenceIdeal.S300 .f32) (a13 : FVec Ideal Cert.ReferenceIdeal.S300x10 .f32) (a14 : FVec Ideal Cert.ReferenceIdeal.S10 .f32)
    (a15 : IVec Cert.ReferenceIdeal.S2x800000 32) (a16 : IVec Cert.ReferenceIdeal.S50000 32) :
    kerModel a0 a1 a2 a3 a4 a5 a6 a7 a8 a9 a10 a11 a12 a13 a14 a15 a16 = Ref.model a0 a1 a2 a3 a4 a5 a6 a7 a8 a9 a10 a11 a12 a13 a14 a15 a16 := by
  unfold kerModel Ref.model
  rw [kerLayer0_eq, kerLayerN_eq, kerLayerN_eq, kerLayerN_eq, kerLayerN_eq, row300_eq a10, row300_eq a11, row300_eq a12,
    show (shapeCast Cert.KernelIdeal.S50000x1 a16 Cert.KernelIdeal.Gen.shapeCasts_S50000_S50000x1 : IVec Cert.ReferenceIdeal.S50000x1 32) = _ from ids_col a16 _ _,
    show (shapeCast Cert.KernelIdeal.S1x10 a14 Cert.KernelIdeal.Gen.shapeCasts_S10_S1x10 : FVec Ideal Cert.ReferenceIdeal.S1x10 .f32) = _ from bias_row_of a14 _ _]

end Cert.Val

end
-- ==== Proof.lean ====
/-
  A five-layer graph network with sum aggregation, a per-graph sum and a normalising classifier.
  The kernel program runs each layer's dense part tile by tile over the node rows and forms the per-graph sums as
  products with 0/1 membership matrices added tile by tile; the array program does each on whole arrays. An entry of a
  layer depends on its own row only, a product into zero is a plain sum of products, and a sum does not depend on its
  grouping, so on the extended reals both compute one function of the seventeen arguments; no step needs finiteness.
-/
import proofs.«403831_j9380208574710_1_alg».proof.Defs
import proofs.«403831_j9380208574710_1_alg».proof.Proof.Gen.Kernel
import proofs.«403831_j9380208574710_1_alg».proof.Proof.Gen.KernelIdeal
import proofs.«403831_j9380208574710_1_alg».proof.Proof.Gen.ReferenceIdeal
import proofs.«403831_j9380208574710_1_alg».proof.Proof.Gen.ReferenceIdeal.Run
import proofs.«403831_j9380208574710_1_alg».proof.Proof.Gen.Pre_finite_inputs
import proofs.«403831_j9380208574710_1_alg».proof.Proof.K.Outs
import proofs.«403831_j9380208574710_1_alg».proof.Proof.KI.Outs
import proofs.«403831_j9380208574710_1_alg».proof.Proof.KI.Result
import proofs.«403831_j9380208574710_1_alg».proof.Proof.Val.KerValue
import proofs.«403831_j9380208574710_1_alg».proof.Proof.Val.Glue
import proofs.«403831_j9380208574710_1_alg».proof.Proof.Val.RefValue

noncomputable section

namespace Cert.Proof

open Idealize.ShloMosaic Idealize.SL.Sem

/-- The seven regions chained through the buffer contents between them; no item writes an argument. -/
theorem frame_k : Cert.frame_Kernel := fun m ρ _ => by
  obtain ⟨outs, hok⟩ := Cert.Kernel.Hand.exists_outs (F := Bits) m
  exact Cert.Kernel.Hand.frame m outs ρ hok

theorem frame_ki : Cert.frame_KernelIdeal := fun m ρ _ => by
  obtain ⟨outs, hok⟩ := Cert.KernelIdeal.Hand.exists_outs (F := Ideal) m
  exact Cert.KernelIdeal.Hand.frame m outs ρ hok

/-- The array program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both runs end at one function of the arguments, and the arguments agree. -/
theorem algebraic : Cert.algebraic_KernelIdeal_ReferenceIdeal := by
  intro m ρ m' ρ' _ hagree
  obtain ⟨outs, hok⟩ := Cert.KernelIdeal.Hand.exists_outs (F := Ideal) m
  refine ⟨fun c => outs 14 Cert.KernelIdeal.main_v107 c, Cert.KernelIdeal.Hand.run_result m outs ρ hok, ?_⟩
  refine (θ_run Cert.ReferenceIdeal.defs _ _).mono (fun r h c => ⟨(h c).1.trans ?_, (h c).2⟩)
    (Cert.Val.Ref.ref_run m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact ((Cert.Val.ker_value m outs hok c).trans (Cert.Val.kerModel_eq _ _ _ _ _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
